-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x40000x3 : Shape := ⟨3, ![4, 40000, 3]⟩
abbrev S4x4x40000 : Shape := ⟨3, ![4, 4, 40000]⟩
abbrev S4x40000 : Shape := ⟨2, ![4, 40000]⟩
abbrev S7x256 : Shape := ⟨2, ![7, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x128 : Shape := ⟨2, ![256, 128]⟩
abbrev S128 : Shape := ⟨1, ![128]⟩
abbrev S13x128 : Shape := ⟨2, ![13, 128]⟩
abbrev S_ : Shape := ⟨0, ![]⟩

class Facts : Prop where
  bcast_S_S4x40000x3 : S_.BroadcastsInDim S4x40000x3 (![] : Fin 0 → Fin S4x40000x3.rank)
  reducesTo_S4x40000x3_S_d0_1_2 : S4x40000x3.ReducesTo [0, 1, 2] S_
  h_S_ : 0 < S_.numel
  bcast_S_S4x4x40000 : S_.BroadcastsInDim S4x4x40000 (![] : Fin 0 → Fin S4x4x40000.rank)
  reducesTo_S4x4x40000_S_d0_1_2 : S4x4x40000.ReducesTo [0, 1, 2] S_
  bcast_S_S7x256 : S_.BroadcastsInDim S7x256 (![] : Fin 0 → Fin S7x256.rank)
  reducesTo_S7x256_S_d0_1 : S7x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S13x128 : S_.BroadcastsInDim S13x128 (![] : Fin 0 → Fin S13x128.rank)
  reducesTo_S13x128_S_d0_1 : S13x128.ReducesTo [0, 1] S_
  bcast_S_S4x40000 : S_.BroadcastsInDim S4x40000 (![] : Fin 0 → Fin S4x40000.rank)
  reducesTo_S4x40000_S_d0_1 : S4x40000.ReducesTo [0, 1] S_

variable [Facts]

def fn_part3 {F : FTy → Type} [FloatOps F] (main_arg2 : IVec S4x40000 32) (main_v48 : IVec S_ 1) (main_v49 : FVec F S13x128 .f32) (main_v50 : FVec F S13x128 .f32) : IVec S_ 1 :=
  let main_v51 : IVec S13x128 1 := cmpf .olt main_v49 main_v50
  let main_c_19 : IVec S_ 1 := constantI S_ 1 1#1
  let main_v52 : IVec S_ 1 := (fun x v => Host.reduce IntOp.andi x v reducesTo_S13x128_S_d0_1 h_S_) main_v51 main_c_19
  let main_v53 : IVec S_ 1 := andi main_v48 main_v52
  let main_c_20 : IVec S_ 32 := constantI S_ 32 0#32
  let main_v54 : IVec S4x40000 32 := broadcastInDim S4x40000 ![] bcast_S_S4x40000 main_c_20
  let main_v55 : IVec S4x40000 1 := cmpi .sge main_arg2 main_v54
  let main_c_21 : IVec S_ 32 := constantI S_ 32 13#32
  let main_v56 : IVec S4x40000 32 := broadcastInDim S4x40000 ![] bcast_S_S4x40000 main_c_21
  let main_v57 : IVec S4x40000 1 := cmpi .slt main_arg2 main_v56
  let main_v58 : IVec S4x40000 1 := andi main_v55 main_v57
  let main_c_22 : IVec S_ 1 := constantI S_ 1 1#1
  let main_v59 : IVec S_ 1 := (fun x v => Host.reduce IntOp.andi x v reducesTo_S4x40000_S_d0_1 h_S_) main_v58 main_c_22
  let main_v60 : IVec S_ 1 := andi main_v53 main_v59
  main_v60

def fn_part2 {F : FTy → Type} [FloatOps F] (main_arg2 : IVec S4x40000 32) (main_arg8 : FVec F S256 .f32) (main_arg9 : FVec F S256x128 .f32) (main_arg10 : FVec F S128 .f32) (main_arg11 : FVec F S13x128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S13x128 .f32 := Host.absf main_arg11
  let main_cst_18 : FVec F S_ .f32 := constant S_ .f32 0x7F800000#32
  let main_v50 : FVec F S13x128 .f32 := broadcastInDim S13x128 ![] bcast_S_S13x128 main_cst_18
  fn_part3 (F := F) main_arg2 main_v48 main_v49 main_v50

def fn_part1 {F : FTy → Type} [FloatOps F] (main_arg2 : IVec S4x40000 32) (main_arg5 : FVec F S256x512 .f32) (main_arg6 : FVec F S512 .f32) (main_arg7 : FVec F S512x256 .f32) (main_arg8 : FVec F S256 .f32) (main_arg9 : FVec F S256x128 .f32) (main_arg10 : FVec F S128 .f32) (main_arg11 : FVec F S13x128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg5
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg2 main_arg8 main_arg9 main_arg10 main_arg11 main_v33

def fn {F : FTy → Type} [FloatOps F] (main_arg0 : FVec F S4x40000x3 .f32) (main_arg1 : FVec F S4x4x40000 .f32) (main_arg2 : IVec S4x40000 32) (main_arg3 : FVec F S7x256 .f32) (main_arg4 : FVec F S256 .f32) (main_arg5 : FVec F S256x512 .f32) (main_arg6 : FVec F S512 .f32) (main_arg7 : FVec F S512x256 .f32) (main_arg8 : FVec F S256 .f32) (main_arg9 : FVec F S256x128 .f32) (main_arg10 : FVec F S128 .f32) (main_arg11 : FVec F S13x128 .f32) : IVec S_ 1 :=
  let main_v0 : FVec F S4x40000x3 .f32 := Host.absf main_arg0
  let main_cst : FVec F S_ .f32 := constant S_ .f32 0x7F800000#32
  let main_v1 : FVec F S4x40000x3 .f32 := broadcastInDim S4x40000x3 ![] bcast_S_S4x40000x3 main_cst
  let main_v2 : IVec S4x40000x3 1 := cmpf .olt main_v0 main_v1
  let main_c : IVec S_ 1 := constantI S_ 1 1#1
  let main_v3 : IVec S_ 1 := (fun x v => Host.reduce IntOp.andi x v reducesTo_S4x40000x3_S_d0_1_2 h_S_) main_v2 main_c
  let main_v4 : FVec F S4x4x40000 .f32 := Host.absf main_arg1
  let main_cst_0 : FVec F S_ .f32 := constant S_ .f32 0x7F800000#32
  let main_v5 : FVec F S4x4x40000 .f32 := broadcastInDim S4x4x40000 ![] bcast_S_S4x4x40000 main_cst_0
  let main_v6 : IVec S4x4x40000 1 := cmpf .olt main_v4 main_v5
  let main_c_1 : IVec S_ 1 := constantI S_ 1 1#1
  let main_v7 : IVec S_ 1 := (fun x v => Host.reduce IntOp.andi x v reducesTo_S4x4x40000_S_d0_1_2 h_S_) main_v6 main_c_1
  let main_v8 : IVec S_ 1 := andi main_v3 main_v7
  let main_v9 : FVec F S7x256 .f32 := Host.absf main_arg3
  let main_cst_2 : FVec F S_ .f32 := constant S_ .f32 0x7F800000#32
  let main_v10 : FVec F S7x256 .f32 := broadcastInDim S7x256 ![] bcast_S_S7x256 main_cst_2
  let main_v11 : IVec S7x256 1 := cmpf .olt main_v9 main_v10
  let main_c_3 : IVec S_ 1 := constantI S_ 1 1#1
  let main_v12 : IVec S_ 1 := (fun x v => Host.reduce IntOp.andi x v reducesTo_S7x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_arg11 main_v13 main_v16
-- ==== Kernel.lean ====
abbrev S4x40000x3 : Shape := ⟨3, ![4, 40000, 3]⟩
abbrev S4x4x40000 : Shape := ⟨3, ![4, 4, 40000]⟩
abbrev S4x40000 : Shape := ⟨2, ![4, 40000]⟩
abbrev S7x256 : Shape := ⟨2, ![7, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x128 : Shape := ⟨2, ![256, 128]⟩
abbrev S128 : Shape := ⟨1, ![128]⟩
abbrev S13x128 : Shape := ⟨2, ![13, 128]⟩
abbrev S160000x3 : Shape := ⟨2, ![160000, 3]⟩
abbrev S4x40000x4 : Shape := ⟨3, ![4, 40000, 4]⟩
abbrev S160000x4 : Shape := ⟨2, ![160000, 4]⟩
abbrev S_ : Shape := ⟨0, ![]⟩
abbrev S160000x1 : Shape := ⟨2, ![160000, 1]⟩
abbrev S160000x8 : Shape := ⟨2, ![160000, 8]⟩
abbrev S8x160000 : Shape := ⟨2, ![8, 160000]⟩
abbrev S160000 : Shape := ⟨1, ![160000]⟩
abbrev S1x160000 : Shape := ⟨2, ![1, 160000]⟩
abbrev S13 : Shape := ⟨1, ![13]⟩
abbrev S13x1 : Shape := ⟨2, ![13, 1]⟩
abbrev S13x160000 : Shape := ⟨2, ![13, 160000]⟩
abbrev S128x1 : Shape := ⟨2, ![128, 1]⟩
abbrev S1 : Shape := ⟨1, ![1]⟩
abbrev S2 : Shape := ⟨1, ![2]⟩
abbrev S8x256 : Shape := ⟨2, ![8, 256]⟩
abbrev S1x256 : Shape := ⟨2, ![1, 256]⟩
abbrev S1x512 : Shape := ⟨2, ![1, 512]⟩
abbrev S1x128 : Shape := ⟨2, ![1, 128]⟩
abbrev S160000x129 : Shape := ⟨2, ![160000, 129]⟩
abbrev S2x128x128 : Shape := ⟨3, ![2, 128, 128]⟩
abbrev S8x3200 : Shape := ⟨2, ![8, 3200]⟩
abbrev S1x3200 : Shape := ⟨2, ![1, 3200]⟩
abbrev S3200x129 : Shape := ⟨2, ![3200, 129]⟩
abbrev S1x128x128 : Shape := ⟨3, ![1, 128, 128]⟩
abbrev S128x128 : Shape := ⟨2, ![128, 128]⟩
abbrev S3200x256 : Shape := ⟨2, ![3200, 256]⟩
abbrev S3200x512 : Shape := ⟨2, ![3200, 512]⟩
abbrev S3200x128 : Shape := ⟨2, ![3200, 128]⟩
abbrev S3200 : Shape := ⟨1, ![3200]⟩
abbrev S3200x1 : Shape := ⟨2, ![3200, 1]⟩
abbrev S128x3200 : Shape := ⟨2, ![128, 3200]⟩

abbrev nBuf : Space → Nat
  | .hbm => 86
  | .vmem => 17
  | .smem => 0
  | _ => 0

abbrev bufTy : (tb : Table) → Fin (tcTables nBuf tb) → BufTy
  | .hbm, ⟨0, _⟩ => ⟨S4x40000x3, .f32⟩
  | .hbm, ⟨1, _⟩ => ⟨S4x4x40000, .f32⟩
  | .hbm, ⟨2, _⟩ => ⟨S4x40000, .i32⟩
  | .hbm, ⟨3, _⟩ => ⟨S7x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S13x128, .f32⟩
  | .hbm, ⟨12, _⟩ => ⟨S160000x3, .f32⟩
  | .hbm, ⟨13, _⟩ => ⟨S4x40000x4, .f32⟩
  | .hbm, ⟨14, _⟩ => ⟨S160000x4, .f32⟩
  | .hbm, ⟨15, _⟩ => ⟨S_, .f32⟩
  | .hbm, ⟨16, _⟩ => ⟨S160000x1, .f32⟩
  | .hbm, ⟨17, _⟩ => ⟨S160000x8, .f32⟩
  | .hbm, ⟨18, _⟩ => ⟨S8x160000, .f32⟩
  | .hbm, ⟨19, _⟩ => ⟨S8x160000, .bf16⟩
  | .hbm, ⟨20, _⟩ => ⟨S160000, .i32⟩
  | .hbm, ⟨21, _⟩ => ⟨S1x160000, .i32⟩
  | .hbm, ⟨22, _⟩ => ⟨S13, .i32⟩
  | .hbm, ⟨23, _⟩ => ⟨S13x1, .i32⟩
  | .hbm, ⟨24, _⟩ => ⟨S1x160000, .i32⟩
  | .hbm, ⟨25, _⟩ => ⟨S13x160000, .i32⟩
  | .hbm, ⟨26, _⟩ => ⟨S13x160000, .i32⟩
  | .hbm, ⟨27, _⟩ => ⟨S13x160000, .i1⟩
  | .hbm, ⟨28, _⟩ => ⟨S13x160000, .i32⟩
  | .hbm, ⟨29, _⟩ => ⟨S_, .i32⟩
  | .hbm, ⟨30, _⟩ => ⟨S13, .i32⟩
  | .hbm, ⟨31, _⟩ => ⟨S13, .f32⟩
  | .hbm, ⟨32, _⟩ => ⟨S_, .f32⟩
  | .hbm, ⟨33, _⟩ => ⟨S13, .f32⟩
  | .hbm, ⟨34, _⟩ => ⟨S13, .i1⟩
  | .hbm, ⟨35, _⟩ => ⟨S13, .f32⟩
  | .hbm, ⟨36, _⟩ => ⟨S_, .f32⟩
  | .hbm, ⟨37, _⟩ => ⟨S128x1, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S128x1, .f32⟩
  | .hbm, ⟨44, _⟩ => ⟨S_, .i32⟩
  | .hbm, ⟨45, _⟩ => ⟨S_, .f32⟩
  | .hbm, ⟨46, _⟩ => ⟨S8x256, .f32⟩
  | .hbm, ⟨47, _⟩ => ⟨S8x256, .bf16⟩
  | .hbm, ⟨48, _⟩ => ⟨S256x512, .bf16⟩
  | .hbm, ⟨49, _⟩ => ⟨S512x256, .bf16⟩
  | .hbm, ⟨50, _⟩ => ⟨S256x128, .bf16⟩
  | .hbm, ⟨51, _⟩ => ⟨S1x256, .f32⟩
  | .hbm, ⟨52, _⟩ => ⟨S1x512, .f32⟩
  | .hbm, ⟨53, _⟩ => ⟨S1x256, .f32⟩
  | .hbm, ⟨54, _⟩ => ⟨S1x128, .f32⟩
  | .hbm, ⟨55, _⟩ => ⟨S160000x129, .f32⟩
  | .hbm, ⟨56, _⟩ => ⟨S2x128x128, .f32⟩
  | .hbm, ⟨57, _⟩ => ⟨S_, .f32⟩
  | .hbm, ⟨58, _⟩ => ⟨S128x128, .f32⟩
  | .hbm, ⟨59, _⟩ => ⟨S13x128, .f32⟩
  | .hbm, ⟨60, _⟩ => ⟨S_, .f32⟩
  | .hbm, ⟨61, _⟩ => ⟨S13, .f32⟩
  | .hbm, ⟨62, _⟩ => ⟨S13, .f32⟩
  | .hbm, ⟨63, _⟩ => ⟨S13x1, .f32⟩
  | .hbm, ⟨64, _⟩ => ⟨S13x128, .f32⟩
  | .hbm, ⟨65, _⟩ => ⟨S13x128, .f32⟩
  | .hbm, ⟨66, _⟩ => ⟨S13x1, .i1⟩
  | .hbm, ⟨67, _⟩ => ⟨S13x128, .i1⟩
  | .hbm, ⟨68, _⟩ => ⟨S13x128, .f32⟩
  | .hbm, ⟨69, _⟩ => ⟨S_, .f32⟩
  | .hbm, ⟨70, _⟩ => ⟨S13x128, .f32⟩
  | .hbm, ⟨71, _⟩ => ⟨S13x128, .f32⟩
  | .hbm, ⟨72, _⟩ => ⟨S_, .f32⟩
  | .hbm, ⟨73, _⟩ => ⟨S13x128, .f32⟩
  | .hbm, ⟨74, _⟩ => ⟨S13x128, .f32⟩
  | .hbm, ⟨75, _⟩ => ⟨S13x128, .f32⟩
  | .hbm, ⟨76, _⟩ => ⟨S13x128, .f32⟩
  | .hbm, ⟨77, _⟩ => ⟨S_, .f32⟩
  | .hbm, ⟨78, _⟩ => ⟨S13, .f32⟩
  | .hbm, ⟨79, _⟩ => ⟨S13x1, .f32⟩
  | .hbm, ⟨80, _⟩ => ⟨S13x1, .f32⟩
  | .hbm, ⟨81, _⟩ => ⟨S_, .f32⟩
  | .hbm, ⟨82, _⟩ => ⟨S13x1, .f32⟩
  | .hbm, ⟨83, _⟩ => ⟨S13x1, .f32⟩
  | .hbm, ⟨84, _⟩ => ⟨S13x128, .f32⟩
  | .hbm, ⟨85, _⟩ => ⟨S13x128, .f32⟩
  | .local _ .vmem, ⟨0, _⟩ => ⟨S8x3200, .bf16⟩
  | .local _ .vmem, ⟨1, _⟩ => ⟨S8x3200, .bf16⟩
  | .local _ .vmem, ⟨2, _⟩ => ⟨S1x3200, .i32⟩
  | .local _ .vmem, ⟨3, _⟩ => ⟨S1x3200, .i32⟩
  | .local _ .vmem, ⟨4, _⟩ => ⟨S128x1, .f32⟩
  | .local _ .vmem, ⟨5, _⟩ => ⟨S8x256, .bf16⟩
  | .local _ .vmem, ⟨6, _⟩ => ⟨S1x256, .f32⟩
  | .local _ .vmem, ⟨7, _⟩ => ⟨S256x512, .bf16⟩
  | .local _ .vmem, ⟨8, _⟩ => ⟨S1x512, .f32⟩
  | .local _ .vmem, ⟨9, _⟩ => ⟨S512x256, .bf16⟩
  | .local _ .vmem, ⟨10, _⟩ => ⟨S1x256, .f32⟩
  | .local _ .vmem, ⟨11, _⟩ => ⟨S256x128, .bf16⟩
  | .local _ .vmem, ⟨12, _⟩ => ⟨S1x128, .f32⟩
  | .local _ .vmem, ⟨13, _⟩ => ⟨S3200x129, .f32⟩
  | .local _ .vmem, ⟨14, _⟩ => ⟨S3200x129, .f32⟩
  | .local _ .vmem, ⟨15, _⟩ => ⟨S1x128x128, .f32⟩
  | .local _ .vmem, ⟨16, _⟩ => ⟨S1x128x128, .f32⟩
  | _, _ => ⟨S4x40000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_call0_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_v0 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S3200x129 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  shapeCasts_S4x40000x3_S160000x3 : S4x40000x3.ShapeCasts S160000x3
  transposes_S4x4x40000_S4x40000x4_0_2_1 : S4x4x40000.Transposes [0, 2, 1] S4x40000x4
  shapeCasts_S4x40000x4_S160000x4 : S4x40000x4.ShapeCasts S160000x4
  bcast_S_S160000x1 : S_.BroadcastsInDim S160000x1 (![] : Fin 0 → Fin S160000x1.rank)
  concatenates_S160000x4_S160000x3_S160000x1_S160000x8_d1 : Shape.Concatenates [S160000x4, S160000x3, S160000x1] S160000x8 1
  transposes_S160000x8_S8x160000_1_0 : S160000x8.Transposes [1, 0] S8x160000
  bitsLt_bf16_f32 : FTy.bits .bf16 < FTy.bits .f32
  shapeCasts_S4x40000_S160000 : S4x40000.ShapeCasts S160000
  shapeCasts_S160000_S1x160000 : S160000.ShapeCasts S1x160000
  shapeCasts_S13_S13x1 : S13.ShapeCasts S13x1
  bcast_S13x1_S13x160000_0_1 : S13x1.BroadcastsInDim S13x160000 (![0, 1] : Fin 2 → Fin S13x160000.rank)
  bcast_S1x160000_S13x160000_0_1 : S1x160000.BroadcastsInDim S13x160000 (![0, 1] : Fin 2 → Fin S13x160000.rank)
  natLt_1_32 : 1 < 32
  reducesTo_S13x160000_S13_d1 : S13x160000.ReducesTo [1] S13
  h_S_ : 0 < S_.numel
  bcast_S_S13 : S_.BroadcastsInDim S13 (![] : Fin 0 → Fin S13.rank)
  bcast_S_S128x1 : S_.BroadcastsInDim S128x1 (![] : Fin 0 → Fin S128x1.rank)
  bcast_S_S1 : S_.BroadcastsInDim S1 (![] : Fin 0 → Fin S1.rank)
  concatenates_S1_S1_S2_d0 : Shape.Concatenates [S1, S1] S2 0
  pads_S7x256_S8x256_010_000 : S7x256.Pads (![0, 0] : Fin 2 → Nat) ![1, 0] ![0, 0] S8x256
  shapeCasts_S256_S1x256 : S256.ShapeCasts S1x256
  shapeCasts_S512_S1x512 : S512.ShapeCasts S1x512
  shapeCasts_S128_S1x128 : S128.ShapeCasts S1x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S8x3200_S8x3200_0_0 : ∀ a, (![0, 0] : Fin 2 → Nat) a + S8x3200.size a ≤ S8x3200.size a
  h_S8x3200 : 0 < S8x3200.numel
  shapeCasts_S8x3200_S8x3200 : S8x3200.ShapeCasts S8x3200
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S3200x512 : S1x512.Broadcasts S3200x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  reduces_S3200x128_S3200 : S3200x128.Reduces [1] S3200
  shapeCasts_S3200_S3200x1 : S3200.ShapeCasts S3200x1
  broadcasts_S3200x1_S3200x128 : S3200x1.Broadcasts S3200x128
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  iota_S128x3200_d0_w32 : S128x3200.Iotas .tc 32 [0]
  broadcasts_S1x3200_S128x3200 : S1x3200.Broadcasts S128x3200
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x1_d0_w32 : S128x1.Iotas .tc 32 [0]
  concatenates_S3200x128_S3200x1_S3200x129_d1 : Shape.Concatenates [S3200x128, S3200x1] S3200x129 1
  inb_S3200x129_S3200x129_0_0 : ∀ a, (![0, 0] : Fin 2 → Nat) a + S3200x129.size a ≤ S3200x129.size a
  h_S3200x129 : 0 < S3200x129.numel
  reducesTo_S2x128x128_S128x128_d0 : S2x128x128.ReducesTo [0] S128x128
  slices_S128x128_S13x128_0_0 : S128x128.Slices ![0, 0] S13x128
  bcast_S13_S13x1_0 : S13.BroadcastsInDim S13x1 (![0] : Fin 1 → Fin S13x1.rank)
  bcast_S13x1_S13x128_0_1 : S13x1.BroadcastsInDim S13x128 (![0, 1] : Fin 2 → Fin S13x128.rank)
  bcast_S_S13x128 : S_.BroadcastsInDim S13x128 (![] : Fin 0 → Fin S13x128.rank)
  reducesTo_S13x128_S13_d1 : S13x128.ReducesTo [1] S13
  bcast_S_S13x1 : S_.BroadcastsInDim S13x1 (![] : Fin 0 → Fin S13x1.rank)
  scatter_S128x1_S2_S13_0_1_01_0_wf : ScatterDims.WF S128x1 S2 S13 [0] [1] [0, 1] 0
  dot_S8x3200_S8x256_S3200x256_0_0_1_1_n_n_wf : DotDims.WF S8x3200 S8x256 S3200x256 [0] [0] [1] [1] [] []
  dot_S3200x256_S256x512_S3200x512_1_0_0_1_n_n_wf : DotDims.WF S3200x256 S256x512 S3200x512 [1] [0] [0] [1] [] []
  dot_S3200x512_S512x256_S3200x256_1_0_0_1_n_n_wf : DotDims.WF S3200x512 S512x256 S3200x256 [1] [0] [0] [1] [] []
  dot_S3200x256_S256x128_S3200x128_1_0_0_1_n_n_wf : DotDims.WF S3200x256 S256x128 S3200x128 [1] [0] [0] [1] [] []
  dot_S128x3200_S128x1_S3200x1_0_0_1_1_n_n_wf : DotDims.WF S128x3200 S128x1 S3200x1 [0] [0] [1] [1] [] []
  dot_S128x3200_S3200x128_S128x128_1_0_0_1_n_n_wf : DotDims.WF S128x3200 S3200x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3200.size a ≤ S8x160000.size a
  hwx0_0 : ∀ i : grid0.Coords, EltTy.bits .bf16 = 32 ∨ (Rect.block (s := S8x160000) S8x3200.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3200.size a ≤ S1x160000.size a
  hwx0_1 : ∀ i : grid0.Coords, EltTy.bits .i32 = 32 ∨ (Rect.block (s := S1x160000) S1x3200.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x256.size a
  hwx0_3 : ∀ i : grid0.Coords, EltTy.bits .bf16 = 32 ∨ (Rect.block (s := S8x256) S8x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .bf16 = 32 ∨ (Rect.block (s := S256x512) S256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x129.size a ≤ S160000x129.size a
  hwx0_11 : ∀ i : grid0.Coords, EltTy.bits .f32 = 32 ∨ (Rect.block (s := S160000x129) S3200x129.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128x128.size a ≤ S2x128x128.size a
  hwx0_12 : ∀ i : grid0.Coords, EltTy.bits .f32 = 32 ∨ (Rect.block (s := S2x128x128) S1x128x128.size (cc0_transform_12 i) (hinb0_12 i)).WholeWords (EltTy.packing .f32)

variable [Facts₀]

def scatter_S128x1_S2_S13_0_1_01_0 : ScatterDims S128x1 S2 S13 where
  updateWindowDims := [0]
  insertedWindowDims := [1]
  scatterDimsToOperandDims := [0, 1]
  indexVectorDim := 0
  wf := scatter_S128x1_S2_S13_0_1_01_0_wf
def dot_S8x3200_S8x256_S3200x256_0_0_1_1_n_n : DotDims S8x3200 S8x256 S3200x256 where
  lhsContracting := [0]
  rhsContracting := [0]
  lhsNonContracting := [1]
  rhsNonContracting := [1]
  lhsBatch := []
  rhsBatch := []
  wf := dot_S8x3200_S8x256_S3200x256_0_0_1_1_n_n_wf
def dot_S3200x256_S256x512_S3200x512_1_0_0_1_n_n : DotDims S3200x256 S256x512 S3200x512 where
  lhsContracting := [1]
  rhsContracting := [0]
  lhsNonContracting := [0]
  rhsNonContracting := [1]
  lhsBatch := []
  rhsBatch := []
  wf := dot_S3200x256_S256x512_S3200x512_1_0_0_1_n_n_wf
def dot_S3200x512_S512x256_S3200x256_1_0_0_1_n_n : DotDims S3200x512 S512x256 S3200x256 where
  lhsContracting := [1]
  rhsContracting := [0]
  lhsNonContracting := [0]
  rhsNonContracting := [1]
  lhsBatch := []
  rhsBatch := []
  wf := dot_S3200x512_S512x256_S3200x256_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def dot_S128x3200_S128x1_S3200x1_0_0_1_1_n_n : DotDims S128x3200 S128x1 S3200x1 where
  lhsContracting := [0]
  rhsContracting := [0]
  lhsNonContracting := [1]
  rhsNonContracting := [1]
  lhsBatch := []
  rhsBatch := []
  wf := dot_S128x3200_S128x1_S3200x1_0_0_1_1_n_n_wf
def dot_S128x3200_S3200x128_S128x128_1_0_0_1_n_n : DotDims S128x3200 S3200x128 S128x128 where
  lhsContracting := [1]
  rhsContracting := [0]
  lhsNonContracting := [0]
  rhsNonContracting := [1]
  lhsBatch := []
  rhsBatch := []
  wf := dot_S128x3200_S3200x128_S128x128_1_0_0_1_n_n_wf

abbrev win0_0 : Pipeline.Window sig grid0 :=
  Pipeline.Window.ofSpec (Memref.whole main_v6) S8x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S8x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35_0) S3200x129.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v35_1) S1x128x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4x40000x3 : Shape := ⟨3, ![4, 40000, 3]⟩
abbrev S4x4x40000 : Shape := ⟨3, ![4, 4, 40000]⟩
abbrev S4x40000 : Shape := ⟨2, ![4, 40000]⟩
abbrev S7x256 : Shape := ⟨2, ![7, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x128 : Shape := ⟨2, ![256, 128]⟩
abbrev S128 : Shape := ⟨1, ![128]⟩
abbrev S13x128 : Shape := ⟨2, ![13, 128]⟩
abbrev S160000x3 : Shape := ⟨2, ![160000, 3]⟩
abbrev S4x40000x4 : Shape := ⟨3, ![4, 40000, 4]⟩
abbrev S160000x4 : Shape := ⟨2, ![160000, 4]⟩
abbrev S160000 : Shape := ⟨1, ![160000]⟩
abbrev S_ : Shape := ⟨0, ![]⟩
abbrev S13 : Shape := ⟨1, ![13]⟩
abbrev S160000x1 : Shape := ⟨2, ![160000, 1]⟩
abbrev S160000x7 : Shape := ⟨2, ![160000, 7]⟩
abbrev S160000x256 : Shape := ⟨2, ![160000, 256]⟩
abbrev S1x256 : Shape := ⟨2, ![1, 256]⟩
abbrev S160000x512 : Shape := ⟨2, ![160000, 512]⟩
abbrev S1x512 : Shape := ⟨2, ![1, 512]⟩
abbrev S160000x128 : Shape := ⟨2, ![160000, 128]⟩
abbrev S1x128 : Shape := ⟨2, ![1, 128]⟩
abbrev S160000x129 : Shape := ⟨2, ![160000, 129]⟩
abbrev S13x1 : Shape := ⟨2, ![13, 1]⟩

abbrev nBuf : Space → Nat
  | .hbm => 110
  | .vmem => 0
  | .smem => 0
  | _ => 0

abbrev bufTy : (tb : Table) → Fin (tcTables nBuf tb) → BufTy
  | .hbm, ⟨0, _⟩ => ⟨S4x40000x3, .f32⟩
  | .hbm, ⟨1, _⟩ => ⟨S4x4x40000, .f32⟩
  | .hbm, ⟨2, _⟩ => ⟨S4x40000, .i32⟩
  | .hbm, ⟨3, _⟩ => ⟨S7x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S13x128, .f32⟩
  | .hbm, ⟨12, _⟩ => ⟨S160000x3, .f32⟩
  | .hbm, ⟨13, _⟩ => ⟨S4x40000x4, .f32⟩
  | .hbm, ⟨14, _⟩ => ⟨S160000x4, .f32⟩
  | .hbm, ⟨15, _⟩ => ⟨S160000, .i32⟩
  | .hbm, ⟨16, _⟩ => ⟨S_, .f32⟩
  | .hbm, ⟨17, _⟩ => ⟨S160000, .f32⟩
  | .hbm, ⟨18, _⟩ => ⟨S_, .f32⟩
  | .hbm, ⟨19, _⟩ => ⟨S13, .f32⟩
  | .hbm, ⟨20, _⟩ => ⟨S160000x1, .i32⟩
  | .hbm, ⟨21, _⟩ => ⟨S13, .f32⟩
  | .hbm, ⟨22, _⟩ => ⟨S_, .f32⟩
  | .hbm, ⟨23, _⟩ => ⟨S13, .f32⟩
  | .hbm, ⟨24, _⟩ => ⟨S13, .i1⟩
  | .hbm, ⟨25, _⟩ => ⟨S160000x7, .f32⟩
  | .hbm, ⟨26, _⟩ => ⟨S160000x256, .f32⟩
  | .hbm, ⟨27, _⟩ => ⟨S1x256, .f32⟩
  | .hbm, ⟨28, _⟩ => ⟨S160000x256, .f32⟩
  | .hbm, ⟨29, _⟩ => ⟨S160000x256, .f32⟩
  | .hbm, ⟨30, _⟩ => ⟨S_, .f32⟩
  | .hbm, ⟨31, _⟩ => ⟨S160000x256, .f32⟩
  | .hbm, ⟨32, _⟩ => ⟨S160000x256, .f32⟩
  | .hbm, ⟨33, _⟩ => ⟨S160000x512, .f32⟩
  | .hbm, ⟨34, _⟩ => ⟨S1x512, .f32⟩
  | .hbm, ⟨35, _⟩ => ⟨S160000x512, .f32⟩
  | .hbm, ⟨36, _⟩ => ⟨S160000x512, .f32⟩
  | .hbm, ⟨37, _⟩ => ⟨S_, .f32⟩
  | .hbm, ⟨38, _⟩ => ⟨S160000x512, .f32⟩
  | .hbm, ⟨39, _⟩ => ⟨S160000x512, .f32⟩
  | .hbm, ⟨40, _⟩ => ⟨S160000x256, .f32⟩
  | .hbm, ⟨41, _⟩ => ⟨S1x256, .f32⟩
  | .hbm, ⟨42, _⟩ => ⟨S160000x256, .f32⟩
  | .hbm, ⟨43, _⟩ => ⟨S160000x256, .f32⟩
  | .hbm, ⟨44, _⟩ => ⟨S_, .f32⟩
  | .hbm, ⟨45, _⟩ => ⟨S160000x256, .f32⟩
  | .hbm, ⟨46, _⟩ => ⟨S160000x256, .f32⟩
  | .hbm, ⟨47, _⟩ => ⟨S160000x128, .f32⟩
  | .hbm, ⟨48, _⟩ => ⟨S1x128, .f32⟩
  | .hbm, ⟨49, _⟩ => ⟨S160000x128, .f32⟩
  | .hbm, ⟨50, _⟩ => ⟨S160000x128, .f32⟩
  | .hbm, ⟨51, _⟩ => ⟨S_, .f32⟩
  | .hbm, ⟨52, _⟩ => ⟨S160000x128, .f32⟩
  | .hbm, ⟨53, _⟩ => ⟨S160000x128, .f32⟩
  | .hbm, ⟨54, _⟩ => ⟨S160000x128, .f32⟩
  | .hbm, ⟨55, _⟩ => ⟨S_, .f32⟩
  | .hbm, ⟨56, _⟩ => ⟨S160000, .f32⟩
  | .hbm, ⟨57, _⟩ => ⟨S160000x1, .f32⟩
  | .hbm, ⟨58, _⟩ => ⟨S160000x1, .f32⟩
  | .hbm, ⟨59, _⟩ => ⟨S_, .f32⟩
  | .hbm, ⟨60, _⟩ => ⟨S160000x1, .f32⟩
  | .hbm, ⟨61, _⟩ => ⟨S160000x1, .f32⟩
  | .hbm, ⟨62, _⟩ => ⟨S160000x128, .f32⟩
  | .hbm, ⟨63, _⟩ => ⟨S160000x128, .f32⟩
  | .hbm, ⟨64, _⟩ => ⟨S_, .i32⟩
  | .hbm, ⟨65, _⟩ => ⟨S160000, .i32⟩
  | .hbm, ⟨66, _⟩ => ⟨S160000, .i1⟩
  | .hbm, ⟨67, _⟩ => ⟨S_, .i32⟩
  | .hbm, ⟨68, _⟩ => ⟨S160000, .i32⟩
  | .hbm, ⟨69, _⟩ => ⟨S160000, .i32⟩
  | .hbm, ⟨70, _⟩ => ⟨S160000, .i32⟩
  | .hbm, ⟨71, _⟩ => ⟨S160000x1, .i32⟩
  | .hbm, ⟨72, _⟩ => ⟨S160000, .i1⟩
  | .hbm, ⟨73, _⟩ => ⟨S_, .i32⟩
  | .hbm, ⟨74, _⟩ => ⟨S_, .i32⟩
  | .hbm, ⟨75, _⟩ => ⟨S160000, .i32⟩
  | .hbm, ⟨76, _⟩ => ⟨S160000, .i32⟩
  | .hbm, ⟨77, _⟩ => ⟨S160000x1, .i32⟩
  | .hbm, ⟨78, _⟩ => ⟨S160000x1, .f32⟩
  | .hbm, ⟨79, _⟩ => ⟨S160000x129, .f32⟩
  | .hbm, ⟨80, _⟩ => ⟨S_, .f32⟩
  | .hbm, ⟨81, _⟩ => ⟨S13x128, .f32⟩
  | .hbm, ⟨82, _⟩ => ⟨S160000x1, .i32⟩
  | .hbm, ⟨83, _⟩ => ⟨S13x128, .f32⟩
  | .hbm, ⟨84, _⟩ => ⟨S_, .f32⟩
  | .hbm, ⟨85, _⟩ => ⟨S13, .f32⟩
  | .hbm, ⟨86, _⟩ => ⟨S13, .f32⟩
  | .hbm, ⟨87, _⟩ => ⟨S13x1, .f32⟩
  | .hbm, ⟨88, _⟩ => ⟨S13x128, .f32⟩
  | .hbm, ⟨89, _⟩ => ⟨S13x128, .f32⟩
  | .hbm, ⟨90, _⟩ => ⟨S13x1, .i1⟩
  | .hbm, ⟨91, _⟩ => ⟨S13x128, .i1⟩
  | .hbm, ⟨92, _⟩ => ⟨S13x128, .f32⟩
  | .hbm, ⟨93, _⟩ => ⟨S_, .f32⟩
  | .hbm, ⟨94, _⟩ => ⟨S13x128, .f32⟩
  | .hbm, ⟨95, _⟩ => ⟨S13x128, .f32⟩
  | .hbm, ⟨96, _⟩ => ⟨S_, .f32⟩
  | .hbm, ⟨97, _⟩ => ⟨S13x128, .f32⟩
  | .hbm, ⟨98, _⟩ => ⟨S13x128, .f32⟩
  | .hbm, ⟨99, _⟩ => ⟨S13x128, .f32⟩
  | .hbm, ⟨100, _⟩ => ⟨S13x128, .f32⟩
  | .hbm, ⟨101, _⟩ => ⟨S_, .f32⟩
  | .hbm, ⟨102, _⟩ => ⟨S13, .f32⟩
  | .hbm, ⟨103, _⟩ => ⟨S13x1, .f32⟩
  | .hbm, ⟨104, _⟩ => ⟨S13x1, .f32⟩
  | .hbm, ⟨105, _⟩ => ⟨S_, .f32⟩
  | .hbm, ⟨106, _⟩ => ⟨S13x1, .f32⟩
  | .hbm, ⟨107, _⟩ => ⟨S13x1, .f32⟩
  | .hbm, ⟨108, _⟩ => ⟨S13x128, .f32⟩
  | .hbm, ⟨109, _⟩ => ⟨S13x128, .f32⟩
  | _, _ => ⟨S4x40000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_cst : Ref sig .tc := ⟨.hbm, 37, rfl⟩
abbrev main_call1_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call2_cst : Ref sig .tc := ⟨.hbm, 44, rfl⟩
abbrev main_call2_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call3_cst : Ref sig .tc := ⟨.hbm, 51, rfl⟩
abbrev main_call3_v0 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c : Ref sig .tc := ⟨.hbm, 64, rfl⟩
abbrev main_v39 : Ref sig .tc := ⟨.hbm, 65, rfl⟩
abbrev main_v40 : Ref sig .tc := ⟨.hbm, 66, rfl⟩
abbrev main_c_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_5 : Ref sig .tc := ⟨.hbm, 73, rfl⟩
abbrev main_call4_v0 : Ref sig .tc := ⟨.hbm, 74, rfl⟩
abbrev main_call4_v1 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call5_v0 : Ref sig .tc := ⟨.hbm, 91, rfl⟩
abbrev main_v59 : Ref sig .tc := ⟨.hbm, 92, rfl⟩
abbrev main_cst_8 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_10 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_11 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]

class Facts₀ : Prop where
  shapeCasts_S4x40000x3_S160000x3 : S4x40000x3.ShapeCasts S160000x3
  transposes_S4x4x40000_S4x40000x4_0_2_1 : S4x4x40000.Transposes [0, 2, 1] S4x40000x4
  shapeCasts_S4x40000x4_S160000x4 : S4x40000x4.ShapeCasts S160000x4
  shapeCasts_S4x40000_S160000 : S4x40000.ShapeCasts S160000
  bcast_S_S160000 : S_.BroadcastsInDim S160000 (![] : Fin 0 → Fin S160000.rank)
  bcast_S_S13 : S_.BroadcastsInDim S13 (![] : Fin 0 → Fin S13.rank)
  bcast_S160000_S160000x1_0 : S160000.BroadcastsInDim S160000x1 (![0] : Fin 1 → Fin S160000x1.rank)
  concatenates_S160000x4_S160000x3_S160000x7_d1 : Shape.Concatenates [S160000x4, S160000x3] S160000x7 1
  bcast_S256_S1x256_1 : S256.BroadcastsInDim S1x256 (![1] : Fin 1 → Fin S1x256.rank)
  bcast_S1x256_S160000x256_0_1 : S1x256.BroadcastsInDim S160000x256 (![0, 1] : Fin 2 → Fin S160000x256.rank)
  bcast_S_S160000x256 : S_.BroadcastsInDim S160000x256 (![] : Fin 0 → Fin S160000x256.rank)
  bcast_S512_S1x512_1 : S512.BroadcastsInDim S1x512 (![1] : Fin 1 → Fin S1x512.rank)
  bcast_S1x512_S160000x512_0_1 : S1x512.BroadcastsInDim S160000x512 (![0, 1] : Fin 2 → Fin S160000x512.rank)
  bcast_S_S160000x512 : S_.BroadcastsInDim S160000x512 (![] : Fin 0 → Fin S160000x512.rank)
  bcast_S128_S1x128_1 : S128.BroadcastsInDim S1x128 (![1] : Fin 1 → Fin S1x128.rank)
  bcast_S1x128_S160000x128_0_1 : S1x128.BroadcastsInDim S160000x128 (![0, 1] : Fin 2 → Fin S160000x128.rank)
  bcast_S_S160000x128 : S_.BroadcastsInDim S160000x128 (![] : Fin 0 → Fin S160000x128.rank)
  reducesTo_S160000x128_S160000_d1 : S160000x128.ReducesTo [1] S160000
  h_S_ : 0 < S_.numel
  bcast_S_S160000x1 : S_.BroadcastsInDim S160000x1 (![] : Fin 0 → Fin S160000x1.rank)
  bcast_S160000x1_S160000x128_0_1 : S160000x1.BroadcastsInDim S160000x128 (![0, 1] : Fin 2 → Fin S160000x128.rank)
  concatenates_S160000x128_S160000x1_S160000x129_d1 : Shape.Concatenates [S160000x128, S160000x1] S160000x129 1
  bcast_S_S13x128 : S_.BroadcastsInDim S13x128 (![] : Fin 0 → Fin S13x128.rank)
  bcast_S13_S13x1_0 : S13.BroadcastsInDim S13x1 (![0] : Fin 1 → Fin S13x1.rank)
  bcast_S13x1_S13x128_0_1 : S13x1.BroadcastsInDim S13x128 (![0, 1] : Fin 2 → Fin S13x128.rank)
  reducesTo_S13x128_S13_d1 : S13x128.ReducesTo [1] S13
  bcast_S_S13x1 : S_.BroadcastsInDim S13x1 (![] : Fin 0 → Fin S13x1.rank)
  scatter_S13_S160000x1_S160000_n_0_0_1_wf : ScatterDims.WF S13 S160000x1 S160000 [] [0] [0] 1
  dot_S160000x7_S7x256_S160000x256_1_0_0_1_n_n_wf : DotDims.WF S160000x7 S7x256 S160000x256 [1] [0] [0] [1] [] []
  dot_S160000x256_S256x512_S160000x512_1_0_0_1_n_n_wf : DotDims.WF S160000x256 S256x512 S160000x512 [1] [0] [0] [1] [] []
  dot_S160000x512_S512x256_S160000x256_1_0_0_1_n_n_wf : DotDims.WF S160000x512 S512x256 S160000x256 [1] [0] [0] [1] [] []
  dot_S160000x256_S256x128_S160000x128_1_0_0_1_n_n_wf : DotDims.WF S160000x256 S256x128 S160000x128 [1] [0] [0] [1] [] []
  gather_S13_S160000x1_S160000_n_0_n_n_0_1_1_wf : GatherDims.WF S13 S160000x1 S160000 [] [0] [] [0] [] 1 ![1]
  scatter_S13x128_S160000x1_S160000x128_1_0_0_1_wf : ScatterDims.WF S13x128 S160000x1 S160000x128 [1] [0] [0] 1

variable [Facts₀]

def scatter_S13_S160000x1_S160000_n_0_0_1 : ScatterDims S13 S160000x1 S160000 where
  updateWindowDims := []
  insertedWindowDims := [0]
  scatterDimsToOperandDims := [0]
  indexVectorDim := 1
  wf := scatter_S13_S160000x1_S160000_n_0_0_1_wf
def dot_S160000x7_S7x256_S160000x256_1_0_0_1_n_n : DotDims S160000x7 S7x256 S160000x256 where
  lhsContracting := [1]
  rhsContracting := [0]
  lhsNonContracting := [0]
  rhsNonContracting := [1]
  lhsBatch := []
  rhsBatch := []
  wf := dot_S160000x7_S7x256_S160000x256_1_0_0_1_n_n_wf
def dot_S160000x256_S256x512_S160000x512_1_0_0_1_n_n : DotDims S160000x256 S256x512 S160000x512 where
  lhsContracting := [1]
  rhsContracting := [0]
  lhsNonContracting := [0]
  rhsNonContracting := [1]
  lhsBatch := []
  rhsBatch := []
  wf := dot_S160000x256_S256x512_S160000x512_1_0_0_1_n_n_wf
def dot_S160000x512_S512x256_S160000x256_1_0_0_1_n_n : DotDims S160000x512 S512x256 S160000x256 where
  lhsContracting := [1]
  rhsContracting := [0]
  lhsNonContracting := [0]
  rhsNonContracting := [1]
  lhsBatch := []
  rhsBatch := []
  wf := dot_S160000x512_S512x256_S160000x256_1_0_0_1_n_n_wf
def dot_S160000x256_S256x128_S160000x128_1_0_0_1_n_n : DotDims S160000x256 S256x128 S160000x128 where
  lhsContracting := [1]
  rhsContracting := [0]
  lhsNonContracting := [0]
  rhsNonContracting := [1]
  lhsBatch := []
  rhsBatch := []
  wf := dot_S160000x256_S256x128_S160000x128_1_0_0_1_n_n_wf
def gather_S13_S160000x1_S160000_n_0_n_n_0_1_1 : GatherDims S13 S160000x1 S160000 where
  offsetDims := []
  collapsedSliceDims := [0]
  operandBatchingDims := []
  startIndicesBatchingDims := []
  startIndexMap := [0]
  indexVectorDim := 1
  sliceSizes := ![1]
  wf := gather_S13_S160000x1_S160000_n_0_n_n_0_1_1_wf
def scatter_S13x128_S160000x1_S160000x128_1_0_0_1 : ScatterDims S13x128 S160000x1 S160000x128 where
  updateWindowDims := [1]
  insertedWindowDims := [0]
  scatterDimsToOperandDims := [0]
  indexVectorDim := 1
  wf := scatter_S13x128_S160000x1_S160000x128_1_0_0_1_wf

class Facts : Prop extends Facts₀ where

variable [Facts]
-- ==== Proof.Fr.Entry.lean ====
import proofs.«417753_j63831803953783_3_alg».proof.Proof.Gen.KernelIdeal.Launch
import proofs.«417753_j63831803953783_3_alg».proof.Proof.Gen.KernelIdeal.Skeleton
import proofs.«417753_j63831803953783_3_alg».proof.Proof.Gen.KernelIdeal.Points
import Idealize.ShloMosaic.Lib.Pipeline.FrameBody

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

abbrev V0 (c : Dev nD) : Valuation τ sig (Elt F) :=
  StableHlo.after (List.flatten [hostOps0, hostOps0_1, hostOps0_2]) (fun b => m (c, b))

abbrev V (c : Dev nD) (b : Ref sig .tc) : Buf (Elt F) ((c : Thread nD τ).loc b) := V0 m c (Proc.devRef .tc b)

def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.KernelIdeal.Fr

end
-- ==== Proof.Fr.Host.lean ====
import proofs.«417753_j63831803953783_3_alg».proof.Proof.Fr.Entry
import proofs.«417753_j63831803953783_3_alg».proof.Proof.Gen.KernelIdeal.Launch
import proofs.«417753_j63831803953783_3_alg».proof.Proof.Gen.KernelIdeal.Skeleton
import proofs.«417753_j63831803953783_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2] [hostOps1, hostOps1_1, hostOps1_2]
    (by simp only [List.Forall]; exact ⟨hostOps0_sub, hostOps0_1_sub, hostOps0_2_sub⟩)
    (by simp only [List.Forall]; exact ⟨hostOps0_fresh, hostOps0_1_fresh, hostOps0_2_fresh⟩) main_chain

theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)

theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

def preW : List (Ref sig .tc) :=
  [main_v0, main_v1, main_v2, main_cst, main_v3, main_v4, main_v5, main_v6, main_v7, main_v8, main_v9, main_v10, main_v11,
   main_v12, main_v13, main_v14, main_v15, main_c, main_v16, main_v17, main_cst_0, main_v18, main_v19, main_v20, main_cst_1,
   main_v21, main_c_2, main_v22, main_c_3, main_v23, main_v24, main_v25, main_c_4, main_call0_v0, main_v26, main_v27,
   main_v28, main_v29, main_v30, main_v31, main_v32, main_v33, main_v34]

def sfxW : List (Ref sig .tc) :=
  [main_cst_5, main_v36, main_v37, main_cst_6, main_v38, main_v39, main_v40, main_v41, main_v42, main_v43, main_call1_v0,
   main_v44, main_cst_7, main_v45, main_v46, main_cst_8, main_v47, main_v48, main_v49, main_v50, main_cst_9, main_v51,
   main_v52, main_v53, main_cst_10, main_v54, main_v55, main_v56, main_v57]

theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem pre_writes : (List.flatten [hostOps0, hostOps0_1, hostOps0_2] : List (HloOp τ sig (Elt F))).Forall fun op =>
    op.writes ⊆ ((preW).map (Proc.devRef (τ := τ) .tc)).toFinset := by
  simp only [hostOps0, hostOps0_1, hostOps0_2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes]
  repeat' apply And.intro
  all_goals exact single_sub_of_mem (by decide)
theorem sfx_writes : (List.flatten [hostOps1, hostOps1_1, hostOps1_2] : List (HloOp τ sig (Elt F))).Forall fun op =>
    op.writes ⊆ ((sfxW).map (Proc.devRef (τ := τ) .tc)).toFinset := by
  simp only [hostOps1, hostOps1_1, hostOps1_2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes]
  repeat' apply And.intro
  all_goals exact single_sub_of_mem (by decide)

-- a buffer that no host operation before the region writes holds at the region's entry what was launched
theorem V_arg (c : Dev nD) {r : Ref sig .tc} (h0 : r ∉ preW) : V m c r = m ((c : Thread nD τ).loc r) :=
  StableHlo.after_of_writes_sub (r := r) _ _ pre_writes h0

-- a buffer that no host operation writes and that is no array of the pipeline ends as launched
theorem W_arg (dats : (p : Fin 1) → (c : Dev nD) → Dat τ (Elt F) Unit ℕ (UR sig nD τ) ℕ (cfgs p) c) (c : Dev nD) {r : Ref sig .tc}
    (h0 : r ∉ preW) (h1 : r ∉ sfxW) (h2 : ∀ w, Pipeline.arrRef spec0 w ≠ r) :
    Pipeline.afterTail₀ cfgs dats 0 (V0 m) [hostOps1, hostOps1_1, hostOps1_2] c r = m ((c : Thread nD τ).loc r) := by
  unfold Pipeline.afterTail₀
  rw [StableHlo.after_of_writes_sub (r := r) _ _ sfx_writes h1, Pipeline.withArrays_of_ne _ c (V0 m c) _ r h2]
  exact V_arg m c h0

-- the twelve arguments are such buffers, so the frame run's post read at them says they end unchanged
theorem args_kept (dats : (p : Fin 1) → (c : Dev nD) → Dat τ (Elt F) Unit ℕ (UR sig nD τ) ℕ (cfgs p) c) {s : PUnit × MemSt nD τ sig (Elt F)}
    (h : Pipeline.FramePost cfgs dats 0 (Pipeline.afterTail₀ cfgs dats 0 (V0 m) [hostOps1, hostOps1_1, hostOps1_2]) s) (c : Dev nD) :
      s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)
      ∧ s.2.mem ((c.tc : Thread nD τ).loc main_arg4) = m ((c.tc : Thread nD τ).loc main_arg4)
      ∧ s.2.mem ((c.tc : Thread nD τ).loc main_arg5) = m ((c.tc : Thread nD τ).loc main_arg5)
      ∧ s.2.mem ((c.tc : Thread nD τ).loc main_arg6) = m ((c.tc : Thread nD τ).loc main_arg6)
      ∧ s.2.mem ((c.tc : Thread nD τ).loc main_arg7) = m ((c.tc : Thread nD τ).loc main_arg7)
      ∧ s.2.mem ((c.tc : Thread nD τ).loc main_arg8) = m ((c.tc : Thread nD τ).loc main_arg8)
      ∧ s.2.mem ((c.tc : Thread nD τ).loc main_arg9) = m ((c.tc : Thread nD τ).loc main_arg9)
      ∧ s.2.mem ((c.tc : Thread nD τ).loc main_arg10) = m ((c.tc : Thread nD τ).loc main_arg10)
      ∧ s.2.mem ((c.tc : Thread nD τ).loc main_arg11) = m ((c.tc : Thread nD τ).loc main_arg11) := by
  have k : ∀ {r : Ref sig .tc}, r.isScoped = false → r ∉ preW → r ∉ sfxW → (∀ w, Pipeline.arrRef spec0 w ≠ r) →
      s.2.mem ((c.tc : Thread nD τ).loc r) = m ((c.tc : Thread nD τ).loc r) :=
    fun hs h0 h1 h2 => ((h c).2 _ (Pipeline.mem_restRefs_of _ hs h2)).trans (W_arg m dats c h0 h1 h2)
  refine ⟨?_, ?_, ?_, ?_, ?_, ?_, ?_, ?_, ?_, ?_, ?_, ?_⟩ <;> exact k (by decide) (by decide) (by decide) (by decide)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 25 = 0 :=
  (by decide +kernel : ∀ t : Fin grid0.N, cond0_0 (grid0.coords t) ↔ t.val % 25 = 0)

abbrev VO0_11 : View sig .tc .vmem S3200x129 .f32 := (Memref.whole cc0_stg11_0 : Memref sig .tc .vmem S3200x129 .f32).view

abbrev VO0_12 : View sig .tc .vmem S1x128x128 .f32 := (Memref.whole cc0_stg12_0 : Memref sig .tc .vmem S1x128x128 .f32).view

abbrev ms0_0 (t : Fin cfg0.N) : Memref sig .tc .vmem S8x3200 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3200 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3200x129 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128x128 .f32 := win0_12.stage (cfg0.slots t 12)
abbrev hs0_12 (t : Fin cfg0.N) : (ms0_12 t).IsWhole := hstage0_12 ((cfg0.slots t 12).cast nbuf0_12)

end Cert.KernelIdeal.Fr

end
-- ==== Proof.Fr.RunA.lean ====
import proofs.«417753_j63831803953783_3_alg».proof.Proof.Fr.Host

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg2 : Memref sig .tc .vmem S8x3200 .bf16) (harg2 : arg2.IsWhole) (arg3 : Memref sig .tc .vmem S1x3200 .i32) (harg3 : arg3.IsWhole) (arg4 : Memref sig .tc .vmem S128x1 .f32) (harg4 : arg4.IsWhole) (arg5 : Memref sig .tc .vmem S8x256 .bf16) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S256x128 .bf16) (harg11 : arg11.IsWhole) (arg12 : Memref sig .tc .vmem S1x128 .f32) (harg12 : arg12.IsWhole) (arg13 : Memref sig .tc .vmem S3200x129 .f32) (harg13 : arg13.IsWhole) (arg14 : Memref sig .tc .vmem S1x128x128 .f32) (harg14 : arg14.IsWhole) (hc0 : cond0_0 i)
    (x0 : Vec F S8x3200 .bf16) (x1 : Vec F S1x3200 .i32) (x2 : Vec F S128x1 .f32) (x3 : Vec F S8x256 .bf16) (x4 : Vec F S1x256 .f32) (x5 : Vec F S256x512 .bf16) (x6 : Vec F S1x512 .f32) (x7 : Vec F S512x256 .bf16) (x8 : Vec F S1x256 .f32) (x9 : Vec F S256x128 .bf16) (x10 : Vec F S1x128 .f32) :
    Σ' (L11 : List (View.Piece (Elt F) S3200x129 .f32)), { L12 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact H12

end Cert.KernelIdeal.Fr

end
-- ==== Proof.Fr.RunB.lean ====
import proofs.«417753_j63831803953783_3_alg».proof.Proof.Fr.RunA

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (arg2 : Memref sig .tc .vmem S8x3200 .bf16) (harg2 : arg2.IsWhole) (arg3 : Memref sig .tc .vmem S1x3200 .i32) (harg3 : arg3.IsWhole) (arg4 : Memref sig .tc .vmem S128x1 .f32) (harg4 : arg4.IsWhole) (arg5 : Memref sig .tc .vmem S8x256 .bf16) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S256x128 .bf16) (harg11 : arg11.IsWhole) (arg12 : Memref sig .tc .vmem S1x128 .f32) (harg12 : arg12.IsWhole) (arg13 : Memref sig .tc .vmem S3200x129 .f32) (harg13 : arg13.IsWhole) (arg14 : Memref sig .tc .vmem S1x128x128 .f32) (harg14 : arg14.IsWhole) (hc0 : ¬cond0_0 i)
    (x0 : Vec F S8x3200 .bf16) (x1 : Vec F S1x3200 .i32) (x2 : Vec F S128x1 .f32) (x3 : Vec F S8x256 .bf16) (x4 : Vec F S1x256 .f32) (x5 : Vec F S256x512 .bf16) (x6 : Vec F S1x512 .f32) (x7 : Vec F S512x256 .bf16) (x8 : Vec F S1x256 .f32) (x9 : Vec F S256x128 .bf16) (x10 : Vec F S1x128 .f32) (xo12 : Vec F S1x128x128 .f32) :
    Σ' (L11 : List (View.Piece (Elt F) S3200x129 .f32)), { L12 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xo12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact H12

end Cert.KernelIdeal.Fr

end
-- ==== Proof.Fr.Frame.lean ====
import proofs.«417753_j63831803953783_3_alg».proof.Proof.Fr.RunB

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S8x3200 .bf16) (harg2 : arg2.IsWhole) (arg3 : Memref sig .tc .vmem S1x3200 .i32) (harg3 : arg3.IsWhole) (arg4 : Memref sig .tc .vmem S128x1 .f32) (harg4 : arg4.IsWhole) (arg5 : Memref sig .tc .vmem S8x256 .bf16) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S256x128 .bf16) (harg11 : arg11.IsWhole) (arg12 : Memref sig .tc .vmem S1x128 .f32) (harg12 : arg12.IsWhole) (arg13 : Memref sig .tc .vmem S3200x129 .f32) (harg13 : arg13.IsWhole) (arg14 : Memref sig .tc .vmem S1x128x128 .f32) (harg14 : arg14.IsWhole)

section
variable (hc0 : cond0_0 i) (x0 : Vec F S8x3200 .bf16) (x1 : Vec F S1x3200 .i32) (x2 : Vec F S128x1 .f32) (x3 : Vec F S8x256 .bf16) (x4 : Vec F S1x256 .f32) (x5 : Vec F S256x512 .bf16) (x6 : Vec F S1x512 .f32) (x7 : Vec F S512x256 .bf16) (x8 : Vec F S1x256 .f32) (x9 : Vec F S256x128 .bf16) (x10 : Vec F S1x128 .f32)

theorem cover0_A_11 (y : S3200x129.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).1, y ∈ pc.1.set :=
  View.cover_of_tiledL _ S3200x129.size (by sl_kernel_rfl) y

def out0_A_11 : Vec F S3200x129 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).1)

theorem cover0_A_12 (y : S1x128x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1, y ∈ pc.1.set :=
  View.cover_of_tiledL _ S1x128x128.size (by sl_kernel_rfl) y

def out0_A_12 : Vec F S1x128x128 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1)

end

section
variable (hc0 : ¬cond0_0 i) (x0 : Vec F S8x3200 .bf16) (x1 : Vec F S1x3200 .i32) (x2 : Vec F S128x1 .f32) (x3 : Vec F S8x256 .bf16) (x4 : Vec F S1x256 .f32) (x5 : Vec F S256x512 .bf16) (x6 : Vec F S1x512 .f32) (x7 : Vec F S512x256 .bf16) (x8 : Vec F S1x256 .f32) (x9 : Vec F S256x128 .bf16) (x10 : Vec F S1x128 .f32) (xo12 : Vec F S1x128x128 .f32)

theorem cover0_B_11 (y : S3200x129.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12).1, y ∈ pc.1.set :=
  View.cover_of_tiledL _ S3200x129.size (by sl_kernel_rfl) y

def out0_B_11 : Vec F S3200x129 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12).1)

theorem cover0_B_12 (y : S1x128x128.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12).2.1, y ∈ pc.1.set :=
  View.cover_of_tiledL _ S1x128x128.size (by sl_kernel_rfl) y

def out0_B_12 : Vec F S1x128x128 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12).2.1)

end

end

def outsAt0 (c : Dev nD) : (n : ℕ) → n < cfg0.N → Vec F S3200x129 .f32 × Vec F S1x128x128 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 25 = 0 then
      (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2)

theorem outsAt0_A (c : Dev nD) (t : Fin cfg0.N) (h0 : t.val % 25 = 0) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans rfl

theorem outsAt0_B (c : Dev nD) (t : Fin cfg0.N) (h0 : ¬t.val % 25 = 0) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

theorem before0_12_B (c : Dev nD) (t : Fin cfg0.N) (h0 : ¬t.val % 25 = 0) (d) :
    (dats m 0 c).before 12 t d = (outsAt0 m c (t.val - 1) (Nat.lt_of_le_of_lt (Nat.sub_le _ _) t.isLt)).2 := by
  have hN : t.val < 50 := lt_of_lt_of_eq t.isLt (show cfg0.N = 50 from N_0)
  rw [Dat.before_out_kept _ 12 rfl t (by omega) (Bool.eq_false_iff.mpr fun h => by have := (flush0_12 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 4000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  have hN : t.val < 50 := lt_of_lt_of_eq t.isLt (show cfg0.N = 50 from N_0)
  by_cases h0 : t.val % 25 = 0
  · rw [outsAt0_A m c t h0]
    unfold out0_A_11 out0_A_12; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iintro ⟨H0, H1, H2, H3, H4, H5, H6, H7, H8, H9, H10, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _)
  · rw [outsAt0_B m c t h0]
    simp only [before0_12_B m c t h0]
    unfold out0_B_11 out0_B_12; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    iintro ⟨H0, H1, H2, H3, H4, H5, H6, H7, H8, H9, H10, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => args_kept m (dats m) h c) (run_main m ρ)

end Cert.KernelIdeal.Fr

end
-- ==== Proof.Ref.FrameRef.lean ====
import proofs.«417753_j63831803953783_3_alg».proof.Defs
import proofs.«417753_j63831803953783_3_alg».proof.Proof.Ref.Run
import proofs.«417753_j63831803953783_3_alg».proof.Proof.Gen.Pre_finite_inputs

noncomputable section

namespace Cert.ReferenceIdeal.RefValue

open Idealize.ShloMosaic Idealize.SL.Sem

theorem frame_ref : Cert.frame_ReferenceIdeal := fun m ρ _ =>
  (θ_run Cert.ReferenceIdeal.defs _ _).mono (fun _ h c => (h c).2.2) (Cert.ReferenceIdeal.Value.run (F := Ideal) m ρ)

end Cert.ReferenceIdeal.RefValue

end
-- ==== Proof.Ref.Imports.lean ====
import proofs.«417753_j63831803953783_3_alg».proof.Proof.Ref.Run
import proofs.«417753_j63831803953783_3_alg».proof.Proof.Ref.Read
-- ==== Proof.Spec.lean ====
import Idealize.ShloMosaic.PureOps.Ideal
import Idealize.ShloMosaic.Lib.ValueIdx

noncomputable section

namespace Cert.Spec

open Idealize.ShloMosaic Idealize.ShloMosaic.ValueIdx

def pb (p : Fin 160000) : Fin 4 := ⟨p.val / 40000, by have := p.isLt; omega⟩

def pn (p : Fin 160000) : Fin 40000 := ⟨p.val % 40000, Nat.mod_lt _ (by norm_num)⟩

def eps : EReal := Ideal.ofBits .f32 0x2B8CBCCC#32
def beta : EReal := Ideal.ofBits .f32 0x3F7FBE77#32
def omb : EReal := Ideal.ofBits .f32 0x3A83126F#32
def minPts : EReal := Ideal.ofBits .f32 0x43800000#32
def one : EReal := Ideal.ofBits .f32 0x3F800000#32
def negOne : EReal := Ideal.ofBits .f32 0xBF800000#32

section
variable (pos : (⟨3, ![4, 40000, 3]⟩ : Shape).Idx → EReal) (x : (⟨3, ![4, 4, 40000]⟩ : Shape).Idx → EReal)
  (y : (⟨2, ![4, 40000]⟩ : Shape).Idx → BitVec 32)
  (w1 : (⟨2, ![7, 256]⟩ : Shape).Idx → EReal) (c1 : (⟨1, ![256]⟩ : Shape).Idx → EReal)
  (w2 : (⟨2, ![256, 512]⟩ : Shape).Idx → EReal) (c2 : (⟨1, ![512]⟩ : Shape).Idx → EReal)
  (w3 : (⟨2, ![512, 256]⟩ : Shape).Idx → EReal) (c3 : (⟨1, ![256]⟩ : Shape).Idx → EReal)
  (w4 : (⟨2, ![256, 128]⟩ : Shape).Idx → EReal) (c4 : (⟨1, ![128]⟩ : Shape).Idx → EReal)
  (pr : (⟨2, ![13, 128]⟩ : Shape).Idx → EReal)

def inp (p : Fin 160000) (k : Fin 7) : EReal :=
  if h : k.val < 4 then x (ix3 (pb p) (⟨k.val, h⟩ : Fin 4) (pn p))
  else pos (ix3 (pb p) (pn p) (⟨k.val - 4, by have := k.isLt; omega⟩ : Fin 3))

def lab (p : Fin 160000) : BitVec 32 := y (ix2 (pb p) (pn p))

def rlin1 (a : Fin 7 → EReal) (j : Fin 256) : EReal := (∑ k : Fin 7, a k * w1 (ix2 k j)) + c1 (ix1 j)
def ract1 (a : Fin 7 → EReal) (j : Fin 256) : EReal := max (rlin1 w1 c1 a j) 0
def rlin2 (a : Fin 7 → EReal) (j : Fin 512) : EReal := (∑ k : Fin 256, ract1 w1 c1 a k * w2 (ix2 k j)) + c2 (ix1 j)
def ract2 (a : Fin 7 → EReal) (j : Fin 512) : EReal := max (rlin2 w1 c1 w2 c2 a j) 0
def rlin3 (a : Fin 7 → EReal) (j : Fin 256) : EReal := (∑ k : Fin 512, ract2 w1 c1 w2 c2 a k * w3 (ix2 k j)) + c3 (ix1 j)
def ract3 (a : Fin 7 → EReal) (j : Fin 256) : EReal := max (rlin3 w1 c1 w2 c2 w3 c3 a j) 0
def rlin4 (a : Fin 7 → EReal) (d : Fin 128) : EReal := (∑ k : Fin 256, ract3 w1 c1 w2 c2 w3 c3 a k * w4 (ix2 k d)) + c4 (ix1 d)

def rfeat (a : Fin 7 → EReal) (d : Fin 128) : EReal := max (rlin4 w1 c1 w2 c2 w3 c3 w4 c4 a d) 0

def rssq (a : Fin 7 → EReal) : EReal := ∑ d : Fin 128, rfeat w1 c1 w2 c2 w3 c3 w4 c4 a d * rfeat w1 c1 w2 c2 w3 c3 w4 c4 a d

def rfeatn (a : Fin 7 → EReal) (d : Fin 128) : EReal :=
  Ideal.div (rfeat w1 c1 w2 c2 w3 c3 w4 c4 a d) (max (Ideal.sqrt (rssq w1 c1 w2 c2 w3 c3 w4 c4 a)) eps)

def featn (p : Fin 160000) (d : Fin 128) : EReal := rfeatn w1 c1 w2 c2 w3 c3 w4 c4 (inp pos x p) d

def cnt (c : Fin 13) : EReal := (((Finset.univ.filter fun p : Fin 160000 => lab y p = BitVec.ofNat 32 c.val).card : ℝ) : EReal)

def valid (c : Fin 13) : Prop := 256 ≤ (Finset.univ.filter fun p : Fin 160000 => lab y p = BitVec.ofNat 32 c.val).card

open Classical in

def lblCol (p : Fin 160000) : EReal :=
  if h : (lab y p).toNat < 13 then (if valid y ⟨(lab y p).toNat, h⟩ then (((lab y p).toNat : ℝ) : EReal) else negOne) else negOne

def out0 (p : Fin 160000) (j : Fin 129) : EReal :=
  if h : j.val < 128 then featn pos x w1 c1 w2 c2 w3 c3 w4 c4 p ⟨j.val, h⟩ else lblCol y p

def sums (c : Fin 13) (d : Fin 128) : EReal :=
  ∑ p ∈ Finset.univ.filter (fun p : Fin 160000 => lab y p = BitVec.ofNat 32 c.val), featn pos x w1 c1 w2 c2 w3 c3 w4 c4 p d

open Classical in

def cur (c : Fin 13) (d : Fin 128) : EReal :=
  if valid y c then Ideal.div (sums pos x y w1 c1 w2 c2 w3 c3 w4 c4 c d) (max (cnt y c) one) else pr (ix2 c d)

def mix (c : Fin 13) (d : Fin 128) : EReal :=
  beta * pr (ix2 c d) + omb * cur pos x y w1 c1 w2 c2 w3 c3 w4 c4 pr c d

def out1 (c : Fin 13) (d : Fin 128) : EReal :=
  Ideal.div (mix pos x y w1 c1 w2 c2 w3 c3 w4 c4 pr c d)
    (max (Ideal.sqrt (∑ e : Fin 128, mix pos x y w1 c1 w2 c2 w3 c3 w4 c4 pr c e * mix pos x y w1 c1 w2 c2 w3 c3 w4 c4 pr c e)) eps)

end

end Cert.Spec

end
-- ==== Proof.Ref.Feat.lean ====
import proofs.«417753_j63831803953783_3_alg».proof.Proof.Ref.Imports
import proofs.«417753_j63831803953783_3_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S4x40000x3, .f32⟩ : BufTy).Contents (Elt Ideal)) (x1 : (⟨S4x4x40000, .f32⟩ : BufTy).Contents (Elt Ideal)) (x3 : (⟨S7x256, .f32⟩ : BufTy).Contents (Elt Ideal)) (x4 : (⟨S256, .f32⟩ : BufTy).Contents (Elt Ideal)) (x5 : (⟨S256x512, .f32⟩ : BufTy).Contents (Elt Ideal)) (x6 : (⟨S512, .f32⟩ : BufTy).Contents (Elt Ideal)) (x7 : (⟨S512x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal))

theorem ref_v0 (p : Fin 160000) (c : Fin 3) :
    val_main_v0 (F := Ideal) x0 (ix2 p c) = x0 (ix3 (Cert.Spec.pb p) (Cert.Spec.pn p) c) := by
  rw [val_main_v0_apply]
  have hp := p.isLt
  have hc := c.isLt
  refine congrArg x0 (funext fun a => Fin.ext ?_)
  match a with
  | ⟨0, _⟩ => show (p.val * 3 + c.val) / 120000 = p.val / 40000; omega
  | ⟨1, _⟩ => show (p.val * 3 + c.val) / 3 % 40000 = p.val % 40000; omega
  | ⟨2, _⟩ => show (p.val * 3 + c.val) % 3 = c.val; omega

theorem ref_v2 (p : Fin 160000) (c : Fin 4) :
    val_main_v2 (F := Ideal) x1 (ix2 p c) = x1 (ix3 (Cert.Spec.pb p) c (Cert.Spec.pn p)) := by
  rw [val_main_v2_apply, val_main_v1_apply]
  have hp := p.isLt
  have hc := c.isLt
  refine congrArg x1 (funext fun a => Fin.ext ?_)
  match a with
  | ⟨0, _⟩ => show (p.val * 4 + c.val) / 160000 = p.val / 40000; omega
  | ⟨1, _⟩ => show (p.val * 4 + c.val) % 4 = c.val; omega
  | ⟨2, _⟩ => show (p.val * 4 + c.val) / 4 % 40000 = p.val % 40000; omega

theorem ref_v10 (p : Fin 160000) (k : Fin 7) :
    val_main_v10 (F := Ideal) x0 x1 (ix2 p k) = Cert.Spec.inp x0 x1 p k := by
  have hk := k.isLt
  unfold val_main_v10 Cert.Spec.inp
  by_cases h : k.val < 4
  · rw [dif_pos h,
      concatenate_pair_apply_left (1 : Fin S160000x7.rank) (val_main_v2 (F := Ideal) x1) (val_main_v0 (F := Ideal) x0)
        concatenates_S160000x4_S160000x3_S160000x7_d1 (ix2 p k) rfl (ix2 p (⟨k.val, h⟩ : Fin 4))
        (fun b => match b with | ⟨0, _⟩ => rfl | ⟨1, _⟩ => rfl)]
    exact ref_v2 x1 p ⟨k.val, h⟩
  · rw [dif_neg h,
      concatenate_pair_apply_right (1 : Fin S160000x7.rank) (val_main_v2 (F := Ideal) x1) (val_main_v0 (F := Ideal) x0)
        concatenates_S160000x4_S160000x3_S160000x7_d1 (ix2 p k) rfl rfl (ix2 p (⟨k.val - 4, by omega⟩ : Fin 3))
        (fun b hb => match b, hb with | ⟨0, _⟩, _ => rfl | ⟨1, _⟩, hb => absurd rfl hb)
        (by show (k.val - 4) + 4 = k.val; omega)]
    exact ref_v0 x0 p ⟨k.val - 4, by omega⟩

theorem ref_v11 (p : Fin 160000) (j : Fin 256) :
    val_main_v11 (F := Ideal) x0 x1 x3 (ix2 p j) = ∑ k : Fin 7, Cert.Spec.inp x0 x1 p k * x3 (ix2 k j) := by
  rw [val_main_v11_apply]
  refine Finset.sum_congr rfl fun k _ => ?_
  have el : lidx_main_v11 (ix2 p j) k = ix2 p k := funext fun a => Fin.ext (by match a with | ⟨0, _⟩ => rfl | ⟨1, _⟩ => rfl)
  have er : ridx_main_v11 (ix2 p j) k = ix2 k j := funext fun a => Fin.ext (by match a with | ⟨0, _⟩ => rfl | ⟨1, _⟩ => rfl)
  rw [el, er, ref_v10]

theorem ref_v13 (p : Fin 160000) (j : Fin 256) :
    val_main_v13 (F := Ideal) x4 (ix2 p j) = x4 (ix1 j) := by
  rw [val_main_v13_apply, val_main_v12_apply]
  exact congrArg x4 (funext fun a => Fin.ext (by match a with | ⟨0, _⟩ => rfl))

theorem ref_call0_v0 (p : Fin 160000) (j : Fin 256) :
    val_main_call0_v0 (F := Ideal) (ix2 p j) = (0 : EReal) := by
  rw [val_main_call0_v0_apply, val_main_call0_cst_apply, Ideal.ofBits_def, Ideal.ofBits_zero_f32]

theorem ref_v15 (p : Fin 160000) (j : Fin 256) :
    val_main_v15 (F := Ideal) x0 x1 x3 x4 (ix2 p j) = Cert.Spec.ract1 x3 x4 (Cert.Spec.inp x0 x1 p) j := by
  rewrite [val_main_v15_apply, val_main_v14_apply, ref_v11, ref_v13, ref_call0_v0]
  rfl

theorem ref_v16 (p : Fin 160000) (j : Fin 512) :
    val_main_v16 (F := Ideal) x0 x1 x3 x4 x5 (ix2 p j) = ∑ k : Fin 256, Cert.Spec.ract1 x3 x4 (Cert.Spec.inp x0 x1 p) k * x5 (ix2 k j) := by
  rw [val_main_v16_apply]
  refine Finset.sum_congr rfl fun k _ => ?_
  have el : lidx_main_v16 (ix2 p j) k = ix2 p k := funext fun a => Fin.ext (by match a with | ⟨0, _⟩ => rfl | ⟨1, _⟩ => rfl)
  have er : ridx_main_v16 (ix2 p j) k = ix2 k j := funext fun a => Fin.ext (by match a with | ⟨0, _⟩ => rfl | ⟨1, _⟩ => rfl)
  rw [el, er, ref_v15]

theorem ref_v18 (p : Fin 160000) (j : Fin 512) :
    val_main_v18 (F := Ideal) x6 (ix2 p j) = x6 (ix1 j) := by
  rw [val_main_v18_apply, val_main_v17_apply]
  exact congrArg x6 (funext fun a => Fin.ext (by match a with | ⟨0, _⟩ => rfl))

theorem ref_call1_v0 (p : Fin 160000) (j : Fin 512) :
    val_main_call1_v0 (F := Ideal) (ix2 p j) = (0 : EReal) := by
  rw [val_main_call1_v0_apply, val_main_call1_cst_apply, Ideal.ofBits_def, Ideal.ofBits_zero_f32]

theorem ref_v20 (p : Fin 160000) (j : Fin 512) :
    val_main_v20 (F := Ideal) x0 x1 x3 x4 x5 x6 (ix2 p j) = Cert.Spec.ract2 x3 x4 x5 x6 (Cert.Spec.inp x0 x1 p) j := by
  rewrite [val_main_v20_apply, val_main_v19_apply, ref_v16, ref_v18, ref_call1_v0]
  rfl

theorem ref_v21 (p : Fin 160000) (j : Fin 256) :
    val_main_v21 (F := Ideal) x0 x1 x3 x4 x5 x6 x7 (ix2 p j) = ∑ k : Fin 512, Cert.Spec.ract2 x3 x4 x5 x6 (Cert.Spec.inp x0 x1 p) k * x7 (ix2 k j) := by
  rw [val_main_v21_apply]
  refine Finset.sum_congr rfl fun k _ => ?_
  have el : lidx_main_v21 (ix2 p j) k = ix2 p k := funext fun a => Fin.ext (by match a with | ⟨0, _⟩ => rfl | ⟨1, _⟩ => rfl)
  have er : ridx_main_v21 (ix2 p j) k = ix2 k j := funext fun a => Fin.ext (by match a with | ⟨0, _⟩ => rfl | ⟨1, _⟩ => rfl)
  rw [el, er, ref_v20]

theorem ref_v23 (p : Fin 160000) (j : Fin 256) :
    val_main_v23 (F := Ideal) x8 (ix2 p j) = x8 (ix1 j) := by
  rw [val_main_v23_apply, val_main_v22_apply]
  exact congrArg x8 (funext fun a => Fin.ext (by match a with | ⟨0, _⟩ => rfl))

theorem ref_call2_v0 (p : Fin 160000) (j : Fin 256) :
    val_main_call2_v0 (F := Ideal) (ix2 p j) = (0 : EReal) := by
  rw [val_main_call2_v0_apply, val_main_call2_cst_apply, Ideal.ofBits_def, Ideal.ofBits_zero_f32]

theorem ref_v25 (p : Fin 160000) (j : Fin 256) :
    val_main_v25 (F := Ideal) x0 x1 x3 x4 x5 x6 x7 x8 (ix2 p j) = Cert.Spec.ract3 x3 x4 x5 x6 x7 x8 (Cert.Spec.inp x0 x1 p) j := by
  rewrite [val_main_v25_apply, val_main_v24_apply, ref_v21, ref_v23, ref_call2_v0]
  rfl

theorem ref_v26 (p : Fin 160000) (j : Fin 128) :
    val_main_v26 (F := Ideal) x0 x1 x3 x4 x5 x6 x7 x8 x9 (ix2 p j) = ∑ k : Fin 256, Cert.Spec.ract3 x3 x4 x5 x6 x7 x8 (Cert.Spec.inp x0 x1 p) k * x9 (ix2 k j) := by
  rw [val_main_v26_apply]
  refine Finset.sum_congr rfl fun k _ => ?_
  have el : lidx_main_v26 (ix2 p j) k = ix2 p k := funext fun a => Fin.ext (by match a with | ⟨0, _⟩ => rfl | ⟨1, _⟩ => rfl)
  have er : ridx_main_v26 (ix2 p j) k = ix2 k j := funext fun a => Fin.ext (by match a with | ⟨0, _⟩ => rfl | ⟨1, _⟩ => rfl)
  rw [el, er, ref_v25]

theorem ref_v28 (p : Fin 160000) (j : Fin 128) :
    val_main_v28 (F := Ideal) x10 (ix2 p j) = x10 (ix1 j) := by
  rw [val_main_v28_apply, val_main_v27_apply]
  exact congrArg x10 (funext fun a => Fin.ext (by match a with | ⟨0, _⟩ => rfl))

theorem ref_call3_v0 (p : Fin 160000) (j : Fin 128) :
    val_main_call3_v0 (F := Ideal) (ix2 p j) = (0 : EReal) := by
  rw [val_main_call3_v0_apply, val_main_call3_cst_apply, Ideal.ofBits_def, Ideal.ofBits_zero_f32]

theorem ref_v30 (p : Fin 160000) (j : Fin 128) :
    val_main_v30 (F := Ideal) x0 x1 x3 x4 x5 x6 x7 x8 x9 x10 (ix2 p j) = Cert.Spec.rfeat x3 x4 x5 x6 x7 x8 x9 x10 (Cert.Spec.inp x0 x1 p) j := by
  rewrite [val_main_v30_apply, val_main_v29_apply, ref_v26, ref_v28, ref_call3_v0]
  rfl

theorem ref_v32 (p : Fin 160000) :
    val_main_v32 (F := Ideal) x0 x1 x3 x4 x5 x6 x7 x8 x9 x10 (ix1 p) = Cert.Spec.rssq x3 x4 x5 x6 x7 x8 x9 x10 (Cert.Spec.inp x0 x1 p) := by
  rw [val_main_v32_apply, val_main_cst_2_apply, Ideal.ofBits_def, Ideal.ofBits_zero_f32, zero_add]
  unfold Cert.Spec.rssq
  refine Finset.sum_congr rfl fun k _ => ?_
  have e : idx_main_v32 (ix1 p) k = ix2 p k := funext fun a => Fin.ext (by match a with | ⟨0, _⟩ => rfl | ⟨1, _⟩ => rfl)
  rewrite [e, val_main_v31_apply, ref_v30]
  rfl

theorem ref_v37 (p : Fin 160000) (d : Fin 128) :
    val_main_v37 (F := Ideal) x0 x1 x3 x4 x5 x6 x7 x8 x9 x10 (ix2 p d)
      = max (Ideal.sqrt (Cert.Spec.rssq x3 x4 x5 x6 x7 x8 x9 x10 (Cert.Spec.inp x0 x1 p))) Cert.Spec.eps := by
  rewrite [val_main_v37_apply, val_main_v36_apply, val_main_v34_apply, val_main_v33_apply, val_main_v35_apply,
    val_main_cst_3_apply]
  have e : idx_main_v33 (idx_main_v37 (ix2 p d)) = ix1 p := funext fun a => Fin.ext (by match a with | ⟨0, _⟩ => rfl)
  rewrite [e, ref_v32]
  rfl

theorem ref_featn

    (p : Fin 160000) (d : Fin 128) :
    val_main_v38 (F := Ideal) x0 x1 x3 x4 x5 x6 x7 x8 x9 x10 (ix2 p d)
      = Cert.Spec.featn x0 x1 x3 x4 x5 x6 x7 x8 x9 x10 p d := by
  rewrite [val_main_v38_apply, ref_v30, ref_v37]
  rfl

end Cert.ReferenceIdeal.RefValue

end
-- ==== Proof.Ref.Scatter.lean ====
import proofs.«417753_j63831803953783_3_alg».proof.Proof.Gen.ReferenceIdeal
import proofs.«417753_j63831803953783_3_alg».proof.Proof.Spec
import Idealize.ShloMosaic.Lib.StableHlo.Predicate
import Idealize.ShloMosaic.Lib.ValueIdx
import Idealize.ShloMosaic.PureOps.Ideal

noncomputable section

namespace Cert.ReferenceIdeal.RefValue

open Cert.ReferenceIdeal Cert.ReferenceIdeal.Gen
open Idealize.ShloMosaic Idealize.ShloMosaic.ValueIdx

theorem toInt_of_lt13 (b : BitVec 32) (h : b.toNat < 13) : b.toInt = (b.toNat : ℤ) :=
  StableHlo.Predicate.toInt_eq_toNat_of_lt (by omega)

theorem toNat_eq_iff (b : BitVec 32) (c : Fin 13) : b.toNat = c.val ↔ b = BitVec.ofNat 32 c.val := by
  have hc := c.isLt
  constructor
  · intro h
    apply BitVec.eq_of_toNat_eq
    rw [h, BitVec.toNat_ofNat]
    omega
  · intro h
    rw [h, BitVec.toNat_ofNat]
    omega

def idxEquiv1 {n : Nat} : (⟨1, ![n]⟩ : Shape).Idx ≃ Fin n where
  toFun i := i 0
  invFun p := ix1 p
  left_inv i := (eq_ix1 i).symm
  right_inv _ := rfl

theorem sum_filter_idx1 {M : Type*} [AddCommMonoid M] {n : Nat} (P : (⟨1, ![n]⟩ : Shape).Idx → Prop)
    [DecidablePred P] (f : (⟨1, ![n]⟩ : Shape).Idx → M) :
    ∑ j ∈ Finset.univ.filter P, f j = ∑ q ∈ Finset.univ.filter (fun q : Fin n => P (ix1 q)), f (ix1 q) := by
  rw [Finset.sum_filter, Finset.sum_filter, ← Equiv.sum_comp (idxEquiv1 (n := n)).symm]
  rfl

theorem sum_filter_idx2 {M : Type*} [AddCommMonoid M] {n0 n1 : Nat} (P : (⟨2, ![n0, n1]⟩ : Shape).Idx → Prop)
    [DecidablePred P] (f : (⟨2, ![n0, n1]⟩ : Shape).Idx → M) :
    ∑ j ∈ Finset.univ.filter P, f j = ∑ a : Fin n0, ∑ b : Fin n1, if P (ix2 a b) then f (ix2 a b) else 0 := by
  rw [Finset.sum_filter, sum_idx2]

theorem cnt_start (idx : IVec S160000x1 32) (q : Fin 160000) :
    scatter_S13_S160000x1_S160000_n_0_0_1.start (ix1 q) idx (0 : Fin 1) = (idx (ix2 q (0 : Fin 1))).toInt := by
  unfold ScatterDims.start
  rw [dif_pos (show (0 : Fin 1) ∈ scatter_S13_S160000x1_S160000_n_0_0_1.scatterDimsToOperandDims from
    List.mem_singleton.mpr rfl)]
  refine congrArg (fun z => (idx z).toInt) ?_
  funext b
  match b with
  | ⟨0, _⟩ => exact Fin.ext rfl
  | ⟨1, _⟩ => exact Fin.ext rfl

theorem cnt_window (q : Fin 160000) :
    scatter_S13_S160000x1_S160000_n_0_0_1.window (ix1 q) (0 : Fin 1) = 0 := by
  unfold ScatterDims.window
  rw [dif_neg (by decide)]

theorem cnt_resultIdx (idx : IVec S160000x1 32) (q : Fin 160000) (h : (idx (ix2 q (0 : Fin 1))).toNat < 13) :
    scatter_S13_S160000x1_S160000_n_0_0_1.resultIdx? (ix1 q) idx
      = some (ix1 (⟨(idx (ix2 q (0 : Fin 1))).toNat, h⟩ : Fin 13)) := by
  have hs := cnt_start idx q
  have hw := cnt_window q
  have hi := toInt_of_lt13 _ h
  unfold ScatterDims.resultIdx?
  rw [dif_pos (by
    intro a
    match a with
    | ⟨0, _⟩ =>
      show 0 ≤ scatter_S13_S160000x1_S160000_n_0_0_1.start (ix1 q) idx (0 : Fin 1)
            + ((scatter_S13_S160000x1_S160000_n_0_0_1.window (ix1 q) (0 : Fin 1) : ℕ) : ℤ) ∧
          scatter_S13_S160000x1_S160000_n_0_0_1.start (ix1 q) idx (0 : Fin 1)
            + ((scatter_S13_S160000x1_S160000_n_0_0_1.window (ix1 q) (0 : Fin 1) : ℕ) : ℤ) < ((13 : ℕ) : ℤ)
      rw [hs, hw, hi]
      omega)]
  refine congrArg some ?_
  funext a
  match a with
  | ⟨0, _⟩ =>
    refine Fin.ext ?_
    show (scatter_S13_S160000x1_S160000_n_0_0_1.start (ix1 q) idx (0 : Fin 1)
            + ((scatter_S13_S160000x1_S160000_n_0_0_1.window (ix1 q) (0 : Fin 1) : ℕ) : ℤ)).toNat = _
    rw [hs, hw, hi]
    simp

theorem sum_start0 (idx : IVec S160000x1 32) (q : Fin 160000) (e : Fin 128) :
    scatter_S13x128_S160000x1_S160000x128_1_0_0_1.start (ix2 q e) idx (0 : Fin 2)
      = (idx (ix2 q (0 : Fin 1))).toInt := by
  unfold ScatterDims.start
  rw [dif_pos (show (0 : Fin 2) ∈ scatter_S13x128_S160000x1_S160000x128_1_0_0_1.scatterDimsToOperandDims from
    List.mem_singleton.mpr rfl)]
  refine congrArg (fun z => (idx z).toInt) ?_
  funext b
  match b with
  | ⟨0, _⟩ => exact Fin.ext rfl
  | ⟨1, _⟩ => exact Fin.ext rfl

theorem sum_start1 (idx : IVec S160000x1 32) (q : Fin 160000) (e : Fin 128) :
    scatter_S13x128_S160000x1_S160000x128_1_0_0_1.start (ix2 q e) idx (1 : Fin 2) = 0 := by
  unfold ScatterDims.start
  rw [dif_neg (by decide)]

theorem sum_window0 (q : Fin 160000) (e : Fin 128) :
    scatter_S13x128_S160000x1_S160000x128_1_0_0_1.window (ix2 q e) (0 : Fin 2) = 0 := by
  unfold ScatterDims.window
  rw [dif_neg (by decide)]

theorem sum_window1 (q : Fin 160000) (e : Fin 128) :
    scatter_S13x128_S160000x1_S160000x128_1_0_0_1.window (ix2 q e) (1 : Fin 2) = e.val := by
  unfold ScatterDims.window
  rw [dif_pos (by decide)]
  rfl

theorem sum_resultIdx (idx : IVec S160000x1 32) (q : Fin 160000) (e : Fin 128)
    (h : (idx (ix2 q (0 : Fin 1))).toNat < 13) :
    scatter_S13x128_S160000x1_S160000x128_1_0_0_1.resultIdx? (ix2 q e) idx
      = some (ix2 (⟨(idx (ix2 q (0 : Fin 1))).toNat, h⟩ : Fin 13) e) := by
  have hs0 := sum_start0 idx q e
  have hs1 := sum_start1 idx q e
  have hw0 := sum_window0 q e
  have hw1 := sum_window1 q e
  have hi := toInt_of_lt13 _ h
  have he := e.isLt
  unfold ScatterDims.resultIdx?
  rw [dif_pos (by
    intro a
    match a with
    | ⟨0, _⟩ =>
      show 0 ≤ scatter_S13x128_S160000x1_S160000x128_1_0_0_1.start (ix2 q e) idx (0 : Fin 2)
            + ((scatter_S13x128_S160000x1_S160000x128_1_0_0_1.window (ix2 q e) (0 : Fin 2) : ℕ) : ℤ) ∧
          scatter_S13x128_S160000x1_S160000x128_1_0_0_1.start (ix2 q e) idx (0 : Fin 2)
            + ((scatter_S13x128_S160000x1_S160000x128_1_0_0_1.window (ix2 q e) (0 : Fin 2) : ℕ) : ℤ) < ((13 : ℕ) : ℤ)
      rw [hs0, hw0, hi]
      omega
    | ⟨1, _⟩ =>
      show 0 ≤ scatter_S13x128_S160000x1_S160000x128_1_0_0_1.start (ix2 q e) idx (1 : Fin 2)
            + ((scatter_S13x128_S160000x1_S160000x128_1_0_0_1.window (ix2 q e) (1 : Fin 2) : ℕ) : ℤ) ∧
          scatter_S13x128_S160000x1_S160000x128_1_0_0_1.start (ix2 q e) idx (1 : Fin 2)
            + ((scatter_S13x128_S160000x1_S160000x128_1_0_0_1.window (ix2 q e) (1 : Fin 2) : ℕ) : ℤ) < ((128 : ℕ) : ℤ)
      rw [hs1, hw1]
      omega)]
  refine congrArg some ?_
  funext a
  match a with
  | ⟨0, _⟩ =>
    refine Fin.ext ?_
    show (scatter_S13x128_S160000x1_S160000x128_1_0_0_1.start (ix2 q e) idx (0 : Fin 2)
            + ((scatter_S13x128_S160000x1_S160000x128_1_0_0_1.window (ix2 q e) (0 : Fin 2) : ℕ) : ℤ)).toNat = _
    rw [hs0, hw0, hi]
    simp
  | ⟨1, _⟩ =>
    refine Fin.ext ?_
    show (scatter_S13x128_S160000x1_S160000x128_1_0_0_1.start (ix2 q e) idx (1 : Fin 2)
            + ((scatter_S13x128_S160000x1_S160000x128_1_0_0_1.window (ix2 q e) (1 : Fin 2) : ℕ) : ℤ)).toNat = _
    rw [hs1, hw1]
    simp

theorem gather_label {α : Type} (x : S13.Idx → α) (idx : IVec S160000x1 32) (p : Fin 160000)
    (h : (idx (ix2 p (0 : Fin 1))).toNat < 13) :
    Host.gather gather_S13_S160000x1_S160000_n_0_n_n_0_1_1 x idx (ix1 p)
      = x (ix1 (⟨(idx (ix2 p (0 : Fin 1))).toNat, h⟩ : Fin 13)) := by
  have hp : (ix1 p : S160000.Idx) = Shape.Idx.ofFin p := by
    funext a; match a with | ⟨0, _⟩ => rfl
  have hq : (StableHlo.Predicate.ixP p : S160000x1.Idx) = ix2 p (0 : Fin 1) := by
    funext a; match a with | ⟨0, _⟩ => rfl | ⟨1, _⟩ => rfl
  rw [hp, StableHlo.Predicate.gather_take gather_S13_S160000x1_S160000_n_0_n_n_0_1_1 rfl rfl rfl rfl x idx p
    (by decide)]
  refine congrArg x ?_
  funext a
  match a with
  | ⟨0, _⟩ =>
    refine Fin.ext ?_
    show min (idx (StableHlo.Predicate.ixP p)).toInt.toNat (13 - 1) = (idx (ix2 p (0 : Fin 1))).toNat
    rw [hq, toInt_of_lt13 _ h]
    simp
    omega

theorem cnt_scatter (x : S13.Idx → EReal) (idx : IVec S160000x1 32) (upd : S160000.Idx → EReal)
    (hidx : ∀ q : Fin 160000, (idx (ix2 q (0 : Fin 1))).toNat < 13) (c : Fin 13) :
    Ideal.hostScatterAdd scatter_S13_S160000x1_S160000_n_0_0_1 x idx upd (ix1 c)
      = x (ix1 c) + ∑ q ∈ Finset.univ.filter (fun q : Fin 160000 => idx (ix2 q (0 : Fin 1)) = BitVec.ofNat 32 c.val),
          upd (ix1 q) := by
  unfold Ideal.hostScatterAdd
  refine congrArg (x (ix1 c) + ·) ?_
  rw [sum_filter_idx1]
  refine Finset.sum_congr ?_ (fun _ _ => rfl)
  ext q
  simp only [Finset.mem_filter, Finset.mem_univ, true_and]
  rw [cnt_resultIdx idx q (hidx q)]
  constructor
  · intro h
    have h0 := congrFun (Option.some.inj h) (0 : Fin 1)
    exact (toNat_eq_iff _ c).1 (congrArg Fin.val h0)
  · intro h
    exact congrArg some (congrArg ix1 (Fin.ext ((toNat_eq_iff _ c).2 h)))

theorem sum_scatter (x : S13x128.Idx → EReal) (idx : IVec S160000x1 32) (upd : S160000x128.Idx → EReal)
    (hidx : ∀ q : Fin 160000, (idx (ix2 q (0 : Fin 1))).toNat < 13) (c : Fin 13) (d : Fin 128) :
    Ideal.hostScatterAdd scatter_S13x128_S160000x1_S160000x128_1_0_0_1 x idx upd (ix2 c d)
      = x (ix2 c d) + ∑ q ∈ Finset.univ.filter (fun q : Fin 160000 => idx (ix2 q (0 : Fin 1)) = BitVec.ofNat 32 c.val),
          upd (ix2 q d) := by
  unfold Ideal.hostScatterAdd
  refine congrArg (x (ix2 c d) + ·) ?_
  rw [sum_filter_idx2, Finset.sum_filter]
  refine Finset.sum_congr rfl (fun q _ => ?_)
  have key : ∀ e : Fin 128,
      scatter_S13x128_S160000x1_S160000x128_1_0_0_1.resultIdx? (ix2 q e) idx = some (ix2 c d)
        ↔ (idx (ix2 q (0 : Fin 1)) = BitVec.ofNat 32 c.val ∧ e = d) := by
    intro e
    rw [sum_resultIdx idx q e (hidx q)]
    constructor
    · intro h
      have h0 := congrFun (Option.some.inj h) (0 : Fin 2)
      have h1 := congrFun (Option.some.inj h) (1 : Fin 2)
      exact ⟨(toNat_eq_iff _ c).1 (congrArg Fin.val h0), h1⟩
    · rintro ⟨h, rfl⟩
      exact congrArg some (congrArg (fun z => ix2 z e) (Fin.ext ((toNat_eq_iff _ c).2 h)))
  by_cases hc : idx (ix2 q (0 : Fin 1)) = BitVec.ofNat 32 c.val
  · rw [if_pos hc, Finset.sum_eq_single d]
    · rw [if_pos ((key d).2 ⟨hc, rfl⟩)]
    · intro e _ hne
      rw [if_neg (fun h => hne ((key e).1 h).2)]
    · intro h
      exact absurd (Finset.mem_univ d) h
  · rw [if_neg hc]
    exact Finset.sum_eq_zero (fun e _ => if_neg (fun h => hc ((key e).1 h).1))

end Cert.ReferenceIdeal.RefValue

end
-- ==== Proof.Consts.lean ====
import Idealize.ShloMosaic.PureOps.Ideal

noncomputable section

namespace Cert.Consts

open Idealize.ShloMosaic

theorem ofBits_zero : Ideal.ofBits .f32 0#32 = 0 := by
  simp [Ideal.ofBits, Ideal.ieee]

theorem ofBits_zero_bf16 : Ideal.ofBits .bf16 0#16 = 0 := by
  simp [Ideal.ofBits, Ideal.ieee]

theorem ofBits_one : Ideal.ofBits .f32 0x3F800000#32 = 1 := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_half : Ideal.ofBits .f32 0x3F000000#32 = (((1 : ℝ) / 2 : ℝ) : EReal) := by
  simp [Ideal.ofBits, Ideal.ieee, -EReal.coe_mul]; norm_num

theorem ofBits_negOne : Ideal.ofBits .f32 0xBF800000#32 = ((-1 : ℝ) : EReal) := by
  simp [Ideal.ofBits, Ideal.ieee, -EReal.coe_mul]; norm_num

end Cert.Consts

end
-- ==== Proof.Ref.Rest.lean ====
import proofs.«417753_j63831803953783_3_alg».proof.Proof.Ref.Feat
import proofs.«417753_j63831803953783_3_alg».proof.Proof.Ref.Scatter
import proofs.«417753_j63831803953783_3_alg».proof.Proof.Consts

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

section Labels

variable (x2 : (⟨S4x40000, .i32⟩ : BufTy).Contents (Elt Ideal))

theorem ref_lab (p : Fin 160000) : val_main_v3 (F := Ideal) x2 (ix1 p) = Cert.Spec.lab x2 p := by
  rw [val_main_v3_apply]
  unfold Cert.Spec.lab
  refine congrArg x2 ?_
  funext a
  match a with
  | ⟨0, _⟩ => exact Fin.ext rfl
  | ⟨1, _⟩ => exact Fin.ext rfl

theorem lab_lt (hy : ∀ q, (x2 q).toNat < 13) (p : Fin 160000) : (Cert.Spec.lab x2 p).toNat < 13 := by
  unfold Cert.Spec.lab
  exact hy _

theorem ref_v6 (q : Fin 160000) : val_main_v6 (F := Ideal) x2 (ix2 q (0 : Fin 1)) = Cert.Spec.lab x2 q := by
  rw [val_main_v6_apply, ← ref_lab]
  refine congrArg (val_main_v3 (F := Ideal) x2) ?_
  funext a
  match a with
  | ⟨0, _⟩ => exact Fin.ext rfl

theorem ref_v51 (q : Fin 160000) : val_main_v51 (F := Ideal) x2 (ix2 q (0 : Fin 1)) = Cert.Spec.lab x2 q := by
  rw [val_main_v51_apply, ← ref_lab]
  refine congrArg (val_main_v3 (F := Ideal) x2) ?_
  funext a
  match a with
  | ⟨0, _⟩ => exact Fin.ext rfl

theorem ref_v43 (hy : ∀ q, (x2 q).toNat < 13) (q : Fin 160000) :
    val_main_v43 (F := Ideal) x2 (ix1 q) = Cert.Spec.lab x2 q := by
  have h := lab_lt x2 hy q
  have hlt : ¬ IntOp.cmpi .slt (Cert.Spec.lab x2 q) 0#32 = 1#1 := by
    rw [StableHlo.Predicate.slt_iff_toNat (by omega) (by decide)]
    simp
  rw [val_main_v43_apply, val_main_v40_apply, val_main_v39_apply, val_main_c_apply, ref_lab,
    eq_zero_of_ne_one hlt, select_zero]

theorem ref_v44 (hy : ∀ q, (x2 q).toNat < 13) (q : Fin 160000) :
    val_main_v44 (F := Ideal) x2 (ix2 q (0 : Fin 1)) = Cert.Spec.lab x2 q := by
  rw [val_main_v44_apply, ← ref_v43 x2 hy]
  refine congrArg (val_main_v43 (F := Ideal) x2) ?_
  funext a
  match a with
  | ⟨0, _⟩ => exact Fin.ext rfl

theorem ref_counts (hy : ∀ q, (x2 q).toNat < 13) (c : Fin 13) :
    val_main_v7 (F := Ideal) x2 (ix1 c) = Cert.Spec.cnt x2 c := by
  unfold val_main_v7
  simp only [Host.scatterAdd, Ideal.hostScatterAdd_def]
  rw [cnt_scatter _ _ _ (fun q => by rw [ref_v6]; exact lab_lt x2 hy q) c,
    val_main_v5_apply, val_main_cst_0_apply, Ideal.ofBits_def, Cert.Consts.ofBits_zero, zero_add]
  simp only [ref_v6, val_main_v4_apply, val_main_cst_apply, Ideal.ofBits_def, Cert.Consts.ofBits_one]
  rw [Finset.sum_const, nsmul_one]
  unfold Cert.Spec.cnt
  rfl

theorem ref_validBit (hy : ∀ q, (x2 q).toNat < 13) (c : Fin 13) :
    val_main_v9 (F := Ideal) x2 (ix1 c) = 1#1 ↔ Cert.Spec.valid x2 c := by
  rw [val_main_v9_apply, ref_counts x2 hy c, val_main_v8_apply, val_main_cst_1_apply]
  show BitVec.ofBool (decide (Ideal.ofBits .f32 0x43800000#32 ≤ Cert.Spec.cnt x2 c)) = 1#1 ↔ _
  rw [StableHlo.Predicate.ofBool_eq_one_iff, decide_eq_true_iff, Cert.Consts.ofBits_256]
  unfold Cert.Spec.cnt Cert.Spec.valid
  rw [EReal.coe_le_coe_iff]
  exact_mod_cast Iff.rfl

theorem ref_v45 (hy : ∀ q, (x2 q).toNat < 13) (p : Fin 160000) :
    val_main_v45 (F := Ideal) x2 (ix1 p)
      = val_main_v9 (F := Ideal) x2 (ix1 (⟨(Cert.Spec.lab x2 p).toNat, lab_lt x2 hy p⟩ : Fin 13)) := by
  have h : (val_main_v44 (F := Ideal) x2 (ix2 p (0 : Fin 1))).toNat < 13 := by
    rw [ref_v44 x2 hy]; exact lab_lt x2 hy p
  unfold val_main_v45
  rw [gather_label _ _ p h]
  refine congrArg (val_main_v9 (F := Ideal) x2) (congrArg ix1 (Fin.ext ?_))
  show (val_main_v44 (F := Ideal) x2 (ix2 p (0 : Fin 1))).toNat = (Cert.Spec.lab x2 p).toNat
  rw [ref_v44 x2 hy]

theorem ref_lblCol (hy : ∀ q, (x2 q).toNat < 13) (p : Fin 160000) :
    val_main_v48 (F := Ideal) x2 (ix2 p (0 : Fin 1)) = Cert.Spec.lblCol x2 p := by
  have hl := lab_lt x2 hy p
  have hi : idx_main_v47 (ix2 p (0 : Fin 1)) = ix1 p := by
    funext a
    match a with
    | ⟨0, _⟩ => exact Fin.ext rfl
  rw [val_main_v48_apply, val_main_v47_apply, hi, val_main_v46_apply, ref_v45 x2 hy p, ref_lab,
    val_main_call4_v1_apply, val_main_call4_v0_apply, val_main_c_5_apply]
  unfold Cert.Spec.lblCol
  rw [dif_pos hl]
  by_cases hv : Cert.Spec.valid x2 ⟨(Cert.Spec.lab x2 p).toNat, hl⟩
  · rw [if_pos hv, (ref_validBit x2 hy _).2 hv, select_one]
    show ((((Cert.Spec.lab x2 p).toInt : ℤ) : ℝ) : EReal) = _
    rw [toInt_of_lt13 _ hl, Int.cast_natCast]
  · rw [if_neg hv, eq_zero_of_ne_one (fun h => hv ((ref_validBit x2 hy _).1 h)), select_zero]
    show ((((4294967295#32 : BitVec 32).toInt : ℤ) : ℝ) : EReal) = Cert.Spec.negOne
    unfold Cert.Spec.negOne
    rw [Cert.Consts.ofBits_negOne, show (4294967295#32 : BitVec 32).toInt = -1 from by decide, Int.cast_neg, Int.cast_one]

end Labels

section Results

variable (x0 : (⟨S4x40000x3, .f32⟩ : BufTy).Contents (Elt Ideal)) (x1 : (⟨S4x4x40000, .f32⟩ : BufTy).Contents (Elt Ideal))
  (x2 : (⟨S4x40000, .i32⟩ : BufTy).Contents (Elt Ideal))
  (x3 : (⟨S7x256, .f32⟩ : BufTy).Contents (Elt Ideal)) (x4 : (⟨S256, .f32⟩ : BufTy).Contents (Elt Ideal))
  (x5 : (⟨S256x512, .f32⟩ : BufTy).Contents (Elt Ideal)) (x6 : (⟨S512, .f32⟩ : BufTy).Contents (Elt Ideal))
  (x7 : (⟨S512x256, .f32⟩ : BufTy).Contents (Elt Ideal)) (x8 : (⟨S256, .f32⟩ : BufTy).Contents (Elt Ideal))
  (x9 : (⟨S256x128, .f32⟩ : BufTy).Contents (Elt Ideal)) (x10 : (⟨S128, .f32⟩ : BufTy).Contents (Elt Ideal))

theorem ref_out0 (hy : ∀ q, (x2 q).toNat < 13) (p : Fin 160000) (j : Fin 129) :
    Cert.ReferenceIdeal.Read.val_main_v49 (F := Ideal) x0 x1 x2 x3 x4 x5 x6 x7 x8 x9 x10 (ix2 p j)
      = Cert.Spec.out0 x0 x1 x2 x3 x4 x5 x6 x7 x8 x9 x10 p j := by
  unfold Cert.Spec.out0 val_main_v49
  by_cases h : j.val < 128
  · rw [dif_pos h, ← ref_featn x0 x1 x3 x4 x5 x6 x7 x8 x9 x10 p ⟨j.val, h⟩]
    generalize val_main_v38 (F := Ideal) x0 x1 x3 x4 x5 x6 x7 x8 x9 x10 = a
    generalize val_main_v48 (F := Ideal) x2 = b
    exact concatenate_pair_apply_left (1 : Fin 2) a b concatenates_S160000x128_S160000x1_S160000x129_d1
      (ix2 p j) rfl (ix2 p (⟨j.val, h⟩ : Fin 128)) (fun c => match c with
        | ⟨0, _⟩ => rfl
        | ⟨1, _⟩ => rfl)
  · rw [dif_neg h, ← ref_lblCol x2 hy p]
    have hj : j.val = 128 := by have := j.isLt; omega
    generalize val_main_v38 (F := Ideal) x0 x1 x3 x4 x5 x6 x7 x8 x9 x10 = a
    generalize val_main_v48 (F := Ideal) x2 = b
    exact concatenate_pair_apply_right (1 : Fin 2) a b concatenates_S160000x128_S160000x1_S160000x129_d1
      (ix2 p j) rfl rfl (ix2 p (0 : Fin 1)) (fun c hc => match c, hc with
        | ⟨0, _⟩, _ => rfl
        | ⟨1, _⟩, hc => absurd rfl hc) (by show (0 : ℕ) + 128 = j.val; omega)

theorem ref_sums (hy : ∀ q, (x2 q).toNat < 13) (c : Fin 13) (d : Fin 128) :
    val_main_v52 (F := Ideal) x0 x1 x2 x3 x4 x5 x6 x7 x8 x9 x10 (ix2 c d)
      = Cert.Spec.sums x0 x1 x2 x3 x4 x5 x6 x7 x8 x9 x10 c d := by
  unfold val_main_v52
  simp only [Host.scatterAdd, Ideal.hostScatterAdd_def]
  rw [sum_scatter _ _ _ (fun q => by rw [ref_v51]; exact lab_lt x2 hy q) c d,
    val_main_v50_apply, val_main_cst_6_apply, Ideal.ofBits_def, Cert.Consts.ofBits_zero, zero_add]
  unfold Cert.Spec.sums
  refine Finset.sum_congr ?_ (fun q _ => ref_featn x0 x1 x3 x4 x5 x6 x7 x8 x9 x10 q d)
  ext q
  simp only [Finset.mem_filter, Finset.mem_univ, true_and, ref_v51]

variable (x11 : (⟨S13x128, .f32⟩ : BufTy).Contents (Elt Ideal))

theorem ref_cur (hy : ∀ q, (x2 q).toNat < 13) (c : Fin 13) (d : Fin 128) :
    val_main_v59 (F := Ideal) x0 x1 x2 x3 x4 x5 x6 x7 x8 x9 x10 x11 (ix2 c d)
      = Cert.Spec.cur x0 x1 x2 x3 x4 x5 x6 x7 x8 x9 x10 x11 c d := by
  have h1 : idx_main_v58 (idx_main_call5_v0 (ix2 c d)) = ix1 c := by
    funext a
    match a with
    | ⟨0, _⟩ => exact Fin.ext rfl
  have h2 : idx_main_v55 (idx_main_v56 (ix2 c d)) = ix1 c := by
    funext a
    match a with
    | ⟨0, _⟩ => exact Fin.ext rfl
  rw [val_main_v59_apply, val_main_call5_v0_apply, val_main_v58_apply, h1]
  unfold Cert.Spec.cur
  by_cases hv : Cert.Spec.valid x2 c
  · rw [if_pos hv, (ref_validBit x2 hy c).2 hv, select_one, val_main_v57_apply, ref_sums x0 x1 x2 x3 x4 x5 x6 x7 x8 x9 x10 hy,
      val_main_v56_apply, val_main_v55_apply, h2, val_main_v54_apply, ref_counts x2 hy, val_main_v53_apply,
      val_main_cst_7_apply]
    rfl
  · rw [if_neg hv, eq_zero_of_ne_one (fun h => hv ((ref_validBit x2 hy c).1 h)), select_zero]

theorem ref_mix (hy : ∀ q, (x2 q).toNat < 13) (c : Fin 13) (d : Fin 128) :
    val_main_v64 (F := Ideal) x0 x1 x2 x3 x4 x5 x6 x7 x8 x9 x10 x11 (ix2 c d)
      = Cert.Spec.mix x0 x1 x2 x3 x4 x5 x6 x7 x8 x9 x10 x11 c d := by
  rw [val_main_v64_apply, val_main_v61_apply, val_main_v63_apply, val_main_v60_apply, val_main_cst_8_apply,
    val_main_v62_apply, val_main_cst_9_apply, ref_cur x0 x1 x2 x3 x4 x5 x6 x7 x8 x9 x10 x11 hy]
  rfl

theorem ref_out1 (hy : ∀ q, (x2 q).toNat < 13) (c : Fin 13) (d : Fin 128) :
    Cert.ReferenceIdeal.Read.val_main_v72 (F := Ideal) x0 x1 x2 x3 x4 x5 x6 x7 x8 x9 x10 x11 (ix2 c d)
      = Cert.Spec.out1 x0 x1 x2 x3 x4 x5 x6 x7 x8 x9 x10 x11 c d := by
  have h1 : idx_main_v67 (idx_main_v71 (ix2 c d)) = ix1 c := by
    funext a
    match a with
    | ⟨0, _⟩ => exact Fin.ext rfl
  have hs : ∀ k : Fin 128, val_main_v65 (F := Ideal) x0 x1 x2 x3 x4 x5 x6 x7 x8 x9 x10 x11 (idx_main_v66 (ix1 c) k)
      = Cert.Spec.mix x0 x1 x2 x3 x4 x5 x6 x7 x8 x9 x10 x11 c k * Cert.Spec.mix x0 x1 x2 x3 x4 x5 x6 x7 x8 x9 x10 x11 c k := by
    intro k
    have hk : idx_main_v66 (ix1 c) k = ix2 c k := by
      funext a
      match a with
      | ⟨0, _⟩ => exact Fin.ext rfl
      | ⟨1, _⟩ => exact Fin.ext rfl
    rw [hk, val_main_v65_apply, ref_mix x0 x1 x2 x3 x4 x5 x6 x7 x8 x9 x10 x11 hy]
    rfl
  rw [val_main_v72_apply, ref_mix x0 x1 x2 x3 x4 x5 x6 x7 x8 x9 x10 x11 hy, val_main_v71_apply, val_main_v70_apply,
    val_main_v68_apply, val_main_v67_apply, h1, val_main_v66_apply, val_main_v69_apply, val_main_cst_11_apply,
    val_main_cst_10_apply, Ideal.ofBits_def, Cert.Consts.ofBits_zero, zero_add, Finset.sum_congr rfl (fun k _ => hs k)]
  rfl

end Results

end Cert.ReferenceIdeal.RefValue

end
-- ==== Proof.SpecArrays.lean ====
import proofs.«417753_j63831803953783_3_alg».proof.Proof.Spec

noncomputable section

namespace Cert.Spec

open Idealize.ShloMosaic Idealize.ShloMosaic.ValueIdx

section
variable (pos : (⟨3, ![4, 40000, 3]⟩ : Shape).Idx → EReal) (x : (⟨3, ![4, 4, 40000]⟩ : Shape).Idx → EReal)
  (y : (⟨2, ![4, 40000]⟩ : Shape).Idx → BitVec 32)
  (w1 : (⟨2, ![7, 256]⟩ : Shape).Idx → EReal) (c1 : (⟨1, ![256]⟩ : Shape).Idx → EReal)
  (w2 : (⟨2, ![256, 512]⟩ : Shape).Idx → EReal) (c2 : (⟨1, ![512]⟩ : Shape).Idx → EReal)
  (w3 : (⟨2, ![512, 256]⟩ : Shape).Idx → EReal) (c3 : (⟨1, ![256]⟩ : Shape).Idx → EReal)
  (w4 : (⟨2, ![256, 128]⟩ : Shape).Idx → EReal) (c4 : (⟨1, ![128]⟩ : Shape).Idx → EReal)
  (pr : (⟨2, ![13, 128]⟩ : Shape).Idx → EReal)

def res0 : (⟨2, ![160000, 129]⟩ : Shape).Idx → EReal :=
  fun i => out0 pos x y w1 c1 w2 c2 w3 c3 w4 c4 (i 0) (i 1)

def res1 : (⟨2, ![13, 128]⟩ : Shape).Idx → EReal :=
  fun i => out1 pos x y w1 c1 w2 c2 w3 c3 w4 c4 pr (i 0) (i 1)

theorem res0_ix2 (p : Fin 160000) (j : Fin 129) :
    res0 pos x y w1 c1 w2 c2 w3 c3 w4 c4 (ix2 p j) = out0 pos x y w1 c1 w2 c2 w3 c3 w4 c4 p j := rfl

theorem res1_ix2 (c : Fin 13) (d : Fin 128) :
    res1 pos x y w1 c1 w2 c2 w3 c3 w4 c4 pr (ix2 c d) = out1 pos x y w1 c1 w2 c2 w3 c3 w4 c4 pr c d := rfl

end

end Cert.Spec

end
-- ==== Proof.Ref.RefRun.lean ====
import proofs.«417753_j63831803953783_3_alg».proof.Proof.Ref.Rest
import proofs.«417753_j63831803953783_3_alg».proof.Proof.SpecArrays

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

theorem ref_run (m' : (ℓ : Loc nD τ sig) → Buf (Elt Ideal) ℓ) (ρ' : Dev nD → PrngReg)
    (hy : ∀ (c : Dev nD) (q : S4x40000.Idx), (m' ((c.tc : Thread nD τ).loc main_arg2) q).toNat < 13) :
    θ_run defs (onTc (τ := τ) (main (F := Ideal))) ⟨m', fun _ => 0, ρ'⟩ (fun r => ∀ c : Dev nD,
      r.2.mem ((c.tc : Thread nD τ).loc main_v49) = Cert.Spec.res0 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))
      ∧ r.2.mem ((c.tc : Thread nD τ).loc main_v72) = Cert.Spec.res1 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)) :=
  (θ_run defs _ _).mono (fun _ h c =>
    ⟨(h c).1.trans ((Cert.ReferenceIdeal.Read.val_main_v49_eq m' c).trans (funext fun i => by
        obtain ⟨p, j, rfl⟩ : ∃ (p : Fin 160000) (j : Fin 129), i = ix2 p j := ⟨i 0, i 1, eq_ix2 i⟩
        exact ref_out0 _ _ _ _ _ _ _ _ _ _ _ (hy c) p j)),
      (h c).2.1.trans ((Cert.ReferenceIdeal.Read.val_main_v72_eq m' c).trans (funext fun i => by
        obtain ⟨cl, d, rfl⟩ : ∃ (cl : Fin 13) (d : Fin 128), i = ix2 cl d := ⟨i 0, i 1, eq_ix2 i⟩
        exact ref_out1 _ _ _ _ _ _ _ _ _ _ _ _ (hy c) cl d)),
      (h c).2.2⟩)
    (Cert.ReferenceIdeal.Value.run (F := Ideal) m' ρ')

end Cert.ReferenceIdeal.RefValue

end
-- ==== Proof.Val.PreLabels.lean ====
import proofs.«417753_j63831803953783_3_alg».proof.Defs
import proofs.«417753_j63831803953783_3_alg».proof.Proof.Gen.Pre_finite_inputs
import Idealize.ShloMosaic.Lib.ReduceAll
import Idealize.ShloMosaic.Lib.ValueIdx

noncomputable section

namespace Cert.KernelIdeal.Val

open Cert.KernelIdeal
open Idealize.ShloMosaic Idealize.ShloMosaic.TcCoe Idealize.ShloMosaic.ValueIdx
open Idealize.SL Idealize.SL.Sem

theorem toNat_lt_13_of_signed (y : BitVec 32) (h0 : IntOp.cmpi .sge y 0#32 = 1#1) (h1 : IntOp.cmpi .slt y 13#32 = 1#1) :
    y.toNat < 13 := by
  rw [IntOp.cmpi_sge] at h0
  rw [IntOp.cmpi_slt] at h1
  have e0 : (0#32 : BitVec 32).toInt = 0 := by decide
  have e13 : (13#32 : BitVec 32).toInt = 13 := by decide
  rw [e0] at h0
  rw [e13] at h1
  have hc := BitVec.toInt_eq_toNat_cond y
  have hl := y.isLt
  split at hc <;> omega

theorem labels_of_pre (m : (ℓ : Loc nD τ sig) → Buf (Elt Ideal) ℓ) (h : Cert.Pre_KernelIdeal m) :
    ∀ (c : Dev nD) (q : S4x40000.Idx),
      ((m ((c.tc : Thread nD τ).loc main_arg2) : S4x40000.Idx → BitVec 32) q).toNat < 13 := by
  intro c q
  have h1 := congrFun (h c) ValueIdx.ix0
  dsimp only [Cert.Pre_finite_inputs.fn, Cert.Pre_finite_inputs.fn_part1, Cert.Pre_finite_inputs.fn_part2,
    Cert.Pre_finite_inputs.fn_part3] at h1
  have h2 := (IntOp.andi_eq_one.1 h1).2

  haveI : Subsingleton Cert.Pre_finite_inputs.S_.Idx := ⟨fun a b => funext fun d => d.elim0⟩
  have h3 := Host.reduce_andi_all _ _ _ _ _ h2 q
  obtain ⟨h4, h5⟩ := IntOp.andi_eq_one.1 h3
  exact toNat_lt_13_of_signed _ h4 h5

end Cert.KernelIdeal.Val

end
-- ==== Proof.Fr.Pieces.lean ====
import proofs.«417753_j63831803953783_3_alg».proof.Proof.Fr.Frame
import Idealize.ShloMosaic.Lib.Pipeline.Value

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg2 : Memref sig .tc .vmem S8x3200 .bf16) (harg2 : arg2.IsWhole) (arg3 : Memref sig .tc .vmem S1x3200 .i32) (harg3 : arg3.IsWhole) (arg4 : Memref sig .tc .vmem S128x1 .f32) (harg4 : arg4.IsWhole) (arg5 : Memref sig .tc .vmem S8x256 .bf16) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S256x128 .bf16) (harg11 : arg11.IsWhole) (arg12 : Memref sig .tc .vmem S1x128 .f32) (harg12 : arg12.IsWhole) (arg13 : Memref sig .tc .vmem S3200x129 .f32) (harg13 : arg13.IsWhole) (arg14 : Memref sig .tc .vmem S1x128x128 .f32) (harg14 : arg14.IsWhole)

section
variable (hc0 : cond0_0 i) (x0 : Vec F S8x3200 .bf16) (x1 : Vec F S1x3200 .i32) (x2 : Vec F S128x1 .f32) (x3 : Vec F S8x256 .bf16) (x4 : Vec F S1x256 .f32) (x5 : Vec F S256x512 .bf16) (x6 : Vec F S1x512 .f32) (x7 : Vec F S512x256 .bf16) (x8 : Vec F S1x256 .f32) (x9 : Vec F S256x128 .bf16) (x10 : Vec F S1x128 .f32)

theorem out0_A_11_eq :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k0_pay6 (k0_pay3 x0 x3 x4 x5 x6 x7 x8) x9 x10 x1 x2 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S8x3200) hz2, View.ld_unit_zero (S := S1x3200) hz2, View.ld_unit_zero (S := S128x1) hz2, View.ld_unit_zero (S := S8x256) hz2, View.ld_unit_zero (S := S1x256) hz2, View.ld_unit_zero (S := S256x512) hz2, View.ld_unit_zero (S := S1x512) hz2, View.ld_unit_zero (S := S512x256) hz2, View.ld_unit_zero (S := S256x128) hz2, View.ld_unit_zero (S := S1x128) hz2]

theorem out0_A_12_eq :
    out0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k0_pay1 (k0_pay7 (k0_pay3 x0 x3 x4 x5 x6 x7 x8) x9 x10 x1) (k0_pay2 (F := F)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_cons_unit_zero (S := S1x128x128) hz3]
  simp only [View.readCov_unit_zero (S := S1x128x128) _ hz3, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S8x3200) hz2, View.ld_unit_zero (S := S1x3200) hz2, View.ld_unit_zero (S := S128x1) hz2, View.ld_unit_zero (S := S8x256) hz2, View.ld_unit_zero (S := S1x256) hz2, View.ld_unit_zero (S := S256x512) hz2, View.ld_unit_zero (S := S1x512) hz2, View.ld_unit_zero (S := S512x256) hz2, View.ld_unit_zero (S := S256x128) hz2, View.ld_unit_zero (S := S1x128) hz2]

end

section
variable (hc0 : ¬cond0_0 i) (x0 : Vec F S8x3200 .bf16) (x1 : Vec F S1x3200 .i32) (x2 : Vec F S128x1 .f32) (x3 : Vec F S8x256 .bf16) (x4 : Vec F S1x256 .f32) (x5 : Vec F S256x512 .bf16) (x6 : Vec F S1x512 .f32) (x7 : Vec F S512x256 .bf16) (x8 : Vec F S1x256 .f32) (x9 : Vec F S256x128 .bf16) (x10 : Vec F S1x128 .f32) (xo12 : Vec F S1x128x128 .f32)

theorem out0_B_11_eq :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 = k0_pay6 (k0_pay3 x0 x3 x4 x5 x6 x7 x8) x9 x10 x1 x2 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S8x3200) hz2, View.ld_unit_zero (S := S1x3200) hz2, View.ld_unit_zero (S := S128x1) hz2, View.ld_unit_zero (S := S8x256) hz2, View.ld_unit_zero (S := S1x256) hz2, View.ld_unit_zero (S := S256x512) hz2, View.ld_unit_zero (S := S1x512) hz2, View.ld_unit_zero (S := S512x256) hz2, View.ld_unit_zero (S := S256x128) hz2, View.ld_unit_zero (S := S1x128) hz2]

theorem out0_B_12_eq :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 = k0_pay1 (k0_pay7 (k0_pay3 x0 x3 x4 x5 x6 x7 x8) x9 x10 x1) xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, View.ld_unit_zero (S := S1x128x128) hz3, View.ld_unit_zero (S := S8x3200) hz2, View.ld_unit_zero (S := S1x3200) hz2, View.ld_unit_zero (S := S128x1) hz2, View.ld_unit_zero (S := S8x256) hz2, View.ld_unit_zero (S := S1x256) hz2, View.ld_unit_zero (S := S256x512) hz2, View.ld_unit_zero (S := S1x512) hz2, View.ld_unit_zero (S := S512x256) hz2, View.ld_unit_zero (S := S256x128) hz2, View.ld_unit_zero (S := S1x128) hz2]

end

end

theorem after11_eq (c : Dev nD) (t : Fin cfg0.N) :
    (dats m 0 c).after 11 t = k0_pay6 (k0_pay3 (iblk m c 0 t) (iblk m c 3 t) (iblk m c 4 t) (iblk m c 5 t) (iblk m c 6 t) (iblk m c 7 t) (iblk m c 8 t)) (iblk m c 9 t) (iblk m c 10 t) (iblk m c 1 t) (iblk m c 2 t) := by
  rw [after0_11]
  by_cases h0 : t.val % 25 = 0
  · rw [outsAt0_A m c t h0]; dsimp only
    exact out0_A_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
  · rw [outsAt0_B m c t h0]; dsimp only
    exact out0_B_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2

theorem after12_A (c : Dev nD) (t : Fin cfg0.N) (h0 : t.val % 25 = 0) :
    (dats m 0 c).after 12 t = k0_pay1 (k0_pay7 (k0_pay3 (iblk m c 0 t) (iblk m c 3 t) (iblk m c 4 t) (iblk m c 5 t) (iblk m c 6 t) (iblk m c 7 t) (iblk m c 8 t)) (iblk m c 9 t) (iblk m c 10 t) (iblk m c 1 t)) (k0_pay2 (F := F)) := by
  rw [after0_12, outsAt0_A m c t h0]; dsimp only
  exact out0_A_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem after12_B (c : Dev nD) (t : Fin cfg0.N) (h0 : ¬t.val % 25 = 0) :
    (dats m 0 c).after 12 t = k0_pay1 (k0_pay7 (k0_pay3 (iblk m c 0 t) (iblk m c 3 t) (iblk m c 4 t) (iblk m c 5 t) (iblk m c 6 t) (iblk m c 7 t) (iblk m c 8 t)) (iblk m c 9 t) (iblk m c 10 t) (iblk m c 1 t)) ((dats m 0 c).after 12 ⟨t.val - 1, Nat.lt_of_le_of_lt (Nat.sub_le _ _) t.isLt⟩) := by
  rw [after0_12, after0_12, outsAt0_B m c t h0]; dsimp only
  exact out0_B_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2

end Cert.KernelIdeal.Fr

end
-- ==== Proof.Val.Blocks.lean ====
import proofs.«417753_j63831803953783_3_alg».proof.Proof.Fr.Entry
import Idealize.ShloMosaic.Lib.ValueIdx
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ)

theorem idx_tile : ∀ t : Fin cfg0.N, win0_0.index t (0 : Fin 2) = 0 ∧ win0_0.index t (1 : Fin 2) = t.val
    ∧ win0_1.index t (0 : Fin 2) = 0 ∧ win0_1.index t (1 : Fin 2) = t.val
    ∧ win0_11.index t (0 : Fin 2) = t.val ∧ win0_11.index t (1 : Fin 2) = 0 :=
  (by decide +kernel : ∀ t : Fin grid0.N, _)

theorem idx_whole : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem iblk0_apply (c : Dev nD) (t : Fin cfg0.N) (k : Fin 8) (r : Fin 3200) (p : Fin 160000)
    (hp : p.val = 3200 * t.val + r.val) :
    (iblk m c 0 t : Vec F S8x3200 .bf16) (ix2 k r) = (V m c main_v6 : S8x160000.Idx → Elt F .bf16) (ix2 k p) := by
  obtain ⟨e0, e1, -⟩ := idx_tile t
  unfold iblk
  rw [View.read_apply]
  show V m c main_v6 _ = V m c main_v6 _
  congr 1
  funext a
  apply Fin.ext
  match a with
  | ⟨0, _⟩ => show win0_0.index t 0 * 8 + 1 * k.val = k.val; rw [e0]; omega
  | ⟨1, _⟩ => show win0_0.index t 1 * 3200 + 1 * r.val = p.val; rw [e1, hp]; omega

theorem iblk1_apply (c : Dev nD) (t : Fin cfg0.N) (r : Fin 3200) (p : Fin 160000)
    (hp : p.val = 3200 * t.val + r.val) :
    (iblk m c 1 t : Vec F S1x3200 .i32) (ix2 (0 : Fin 1) r) = (V m c main_v8 : S1x160000.Idx → Elt F .i32) (ix2 (0 : Fin 1) p) := by
  obtain ⟨-, -, e0, e1, -⟩ := idx_tile t
  unfold iblk
  rw [View.read_apply]
  show V m c main_v8 _ = V m c main_v8 _
  congr 1
  funext a
  apply Fin.ext
  match a with
  | ⟨0, _⟩ => show win0_1.index t 0 * 1 + 1 * 0 = 0; rw [e0]
  | ⟨1, _⟩ => show win0_1.index t 1 * 3200 + 1 * r.val = p.val; rw [e1, hp]; omega

theorem iblk2_eq (c : Dev nD) (t : Fin cfg0.N) :
    (iblk m c 2 t : Vec F S128x1 .f32) = (V m c main_v25 : S128x1.Idx → Elt F .f32) := by
  obtain ⟨⟨e0, e1⟩, -, -, -, -, -, -, -, -⟩ := idx_whole t
  funext j
  unfold iblk
  rw [View.read_apply]
  show V m c main_v25 _ = V m c main_v25 j
  congr 1
  funext a
  apply Fin.ext
  match a with
  | ⟨0, _⟩ => show win0_2.index t 0 * 128 + 1 * (j 0).val = (j 0).val; rw [e0]; omega
  | ⟨1, _⟩ => show win0_2.index t 1 * 1 + 1 * (j 1).val = (j 1).val; rw [e1]; omega

theorem iblk3_eq (c : Dev nD) (t : Fin cfg0.N) :
    (iblk m c 3 t : Vec F S8x256 .bf16) = (V m c main_v27 : S8x256.Idx → Elt F .bf16) := by
  obtain ⟨-, ⟨e0, e1⟩, -, -, -, -, -, -, -⟩ := idx_whole t
  funext j
  unfold iblk
  rw [View.read_apply]
  show V m c main_v27 _ = V m c main_v27 j
  congr 1
  funext a
  apply Fin.ext
  match a with
  | ⟨0, _⟩ => show win0_3.index t 0 * 8 + 1 * (j 0).val = (j 0).val; rw [e0]; omega
  | ⟨1, _⟩ => show win0_3.index t 1 * 256 + 1 * (j 1).val = (j 1).val; rw [e1]; omega

theorem iblk4_eq (c : Dev nD) (t : Fin cfg0.N) :
    (iblk m c 4 t : Vec F S1x256 .f32) = (V m c main_v31 : S1x256.Idx → Elt F .f32) := by
  obtain ⟨-, -, ⟨e0, e1⟩, -, -, -, -, -, -⟩ := idx_whole t
  funext j
  unfold iblk
  rw [View.read_apply]
  show V m c main_v31 _ = V m c main_v31 j
  congr 1
  funext a
  apply Fin.ext
  match a with
  | ⟨0, _⟩ => show win0_4.index t 0 * 1 + 1 * (j 0).val = (j 0).val; rw [e0]; omega
  | ⟨1, _⟩ => show win0_4.index t 1 * 256 + 1 * (j 1).val = (j 1).val; rw [e1]; omega

theorem iblk5_eq (c : Dev nD) (t : Fin cfg0.N) :
    (iblk m c 5 t : Vec F S256x512 .bf16) = (V m c main_v28 : S256x512.Idx → Elt F .bf16) := by
  obtain ⟨-, -, -, ⟨e0, e1⟩, -, -, -, -, -⟩ := idx_whole t
  funext j
  unfold iblk
  rw [View.read_apply]
  show V m c main_v28 _ = V m c main_v28 j
  congr 1
  funext a
  apply Fin.ext
  match a with
  | ⟨0, _⟩ => show win0_5.index t 0 * 256 + 1 * (j 0).val = (j 0).val; rw [e0]; omega
  | ⟨1, _⟩ => show win0_5.index t 1 * 512 + 1 * (j 1).val = (j 1).val; rw [e1]; omega

theorem iblk6_eq (c : Dev nD) (t : Fin cfg0.N) :
    (iblk m c 6 t : Vec F S1x512 .f32) = (V m c main_v32 : S1x512.Idx → Elt F .f32) := by
  obtain ⟨-, -, -, -, ⟨e0, e1⟩, -, -, -, -⟩ := idx_whole t
  funext j
  unfold iblk
  rw [View.read_apply]
  show V m c main_v32 _ = V m c main_v32 j
  congr 1
  funext a
  apply Fin.ext
  match a with
  | ⟨0, _⟩ => show win0_6.index t 0 * 1 + 1 * (j 0).val = (j 0).val; rw [e0]; omega
  | ⟨1, _⟩ => show win0_6.index t 1 * 512 + 1 * (j 1).val = (j 1).val; rw [e1]; omega

theorem iblk7_eq (c : Dev nD) (t : Fin cfg0.N) :
    (iblk m c 7 t : Vec F S512x256 .bf16) = (V m c main_v29 : S512x256.Idx → Elt F .bf16) := by
  obtain ⟨-, -, -, -, -, ⟨e0, e1⟩, -, -, -⟩ := idx_whole t
  funext j
  unfold iblk
  rw [View.read_apply]
  show V m c main_v29 _ = V m c main_v29 j
  congr 1
  funext a
  apply Fin.ext
  match a with
  | ⟨0, _⟩ => show win0_7.index t 0 * 512 + 1 * (j 0).val = (j 0).val; rw [e0]; omega
  | ⟨1, _⟩ => show win0_7.index t 1 * 256 + 1 * (j 1).val = (j 1).val; rw [e1]; omega

theorem iblk8_eq (c : Dev nD) (t : Fin cfg0.N) :
    (iblk m c 8 t : Vec F S1x256 .f32) = (V m c main_v33 : S1x256.Idx → Elt F .f32) := by
  obtain ⟨-, -, -, -, -, -, ⟨e0, e1⟩, -, -⟩ := idx_whole t
  funext j
  unfold iblk
  rw [View.read_apply]
  show V m c main_v33 _ = V m c main_v33 j
  congr 1
  funext a
  apply Fin.ext
  match a with
  | ⟨0, _⟩ => show win0_8.index t 0 * 1 + 1 * (j 0).val = (j 0).val; rw [e0]; omega
  | ⟨1, _⟩ => show win0_8.index t 1 * 256 + 1 * (j 1).val = (j 1).val; rw [e1]; omega

theorem iblk9_eq (c : Dev nD) (t : Fin cfg0.N) :
    (iblk m c 9 t : Vec F S256x128 .bf16) = (V m c main_v30 : S256x128.Idx → Elt F .bf16) := by
  obtain ⟨-, -, -, -, -, -, -, ⟨e0, e1⟩, -⟩ := idx_whole t
  funext j
  unfold iblk
  rw [View.read_apply]
  show V m c main_v30 _ = V m c main_v30 j
  congr 1
  funext a
  apply Fin.ext
  match a with
  | ⟨0, _⟩ => show win0_9.index t 0 * 256 + 1 * (j 0).val = (j 0).val; rw [e0]; omega
  | ⟨1, _⟩ => show win0_9.index t 1 * 128 + 1 * (j 1).val = (j 1).val; rw [e1]; omega

theorem iblk10_eq (c : Dev nD) (t : Fin cfg0.N) :
    (iblk m c 10 t : Vec F S1x128 .f32) = (V m c main_v34 : S1x128.Idx → Elt F .f32) := by
  obtain ⟨-, -, -, -, -, -, -, -, ⟨e0, e1⟩⟩ := idx_whole t
  funext j
  unfold iblk
  rw [View.read_apply]
  show V m c main_v34 _ = V m c main_v34 j
  congr 1
  funext a
  apply Fin.ext
  match a with
  | ⟨0, _⟩ => show win0_10.index t 0 * 1 + 1 * (j 0).val = (j 0).val; rw [e0]; omega
  | ⟨1, _⟩ => show win0_10.index t 1 * 128 + 1 * (j 1).val = (j 1).val; rw [e1]; omega

end Cert.KernelIdeal.Val

end
-- ==== Proof.Val.Pay.lean ====
import proofs.«417753_j63831803953783_3_alg».proof.Proof.Gen.KernelIdeal.Skeleton
import proofs.«417753_j63831803953783_3_alg».proof.Proof.Spec
import proofs.«417753_j63831803953783_3_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.StackMember

noncomputable section

namespace Cert.KernelIdeal.Val

open Cert.KernelIdeal Cert.KernelIdeal.Gen Idealize.ShloMosaic Idealize.ShloMosaic.ValueIdx

namespace Pay

section Layout
variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

theorem lhs_l1_0 (i : S3200x256.Idx) (q : dot_S8x3200_S8x256_S3200x256_0_0_1_1_n_n.contr.Idx) :
    (dot_S8x3200_S8x256_S3200x256_0_0_1_1_n_n.lhsIdx i q 0).val = (q ⟨0, by decide⟩).val :=
  dot_S8x3200_S8x256_S3200x256_0_0_1_1_n_n.lhsIdx_val_of_single rfl i q
theorem lhs_l1_1 (i : S3200x256.Idx) (q : dot_S8x3200_S8x256_S3200x256_0_0_1_1_n_n.contr.Idx) :
    (dot_S8x3200_S8x256_S3200x256_0_0_1_1_n_n.lhsIdx i q 1).val = (i 0).val := by
  unfold DotDims.lhsIdx
  rw [dif_neg (show ¬(1 : Fin S8x3200.rank) ∈ dot_S8x3200_S8x256_S3200x256_0_0_1_1_n_n.lhsBatch by decide), dif_pos (show (1 : Fin S8x3200.rank) ∈ dot_S8x3200_S8x256_S3200x256_0_0_1_1_n_n.lhsNonContracting by decide)]
  rfl
theorem rhs_l1_0 (i : S3200x256.Idx) (q : dot_S8x3200_S8x256_S3200x256_0_0_1_1_n_n.contr.Idx) :
    (dot_S8x3200_S8x256_S3200x256_0_0_1_1_n_n.rhsIdx i q 0).val = (q ⟨0, by decide⟩).val :=
  dot_S8x3200_S8x256_S3200x256_0_0_1_1_n_n.rhsIdx_val_of_single rfl i q
theorem rhs_l1_1 (i : S3200x256.Idx) (q : dot_S8x3200_S8x256_S3200x256_0_0_1_1_n_n.contr.Idx) :
    (dot_S8x3200_S8x256_S3200x256_0_0_1_1_n_n.rhsIdx i q 1).val = (i 1).val := by
  unfold DotDims.rhsIdx
  rw [dif_neg (show ¬(1 : Fin S8x256.rank) ∈ dot_S8x3200_S8x256_S3200x256_0_0_1_1_n_n.rhsBatch by decide), dif_pos (show (1 : Fin S8x256.rank) ∈ dot_S8x3200_S8x256_S3200x256_0_0_1_1_n_n.rhsNonContracting by decide)]
  rfl

theorem mm_l1_apply {φ₁ φ₂ : FTy} (lhs : FVec Ideal S8x3200 φ₁) (rhs : FVec Ideal S8x256 φ₂) (p : Fin 3200) (q : Fin 256) :
    matmul dot_S8x3200_S8x256_S3200x256_0_0_1_1_n_n none lhs rhs (constant (F := Ideal) S3200x256 .f32 0x00000000#32) (ix2 p q)
      = ∑ k : Fin 8, lhs (ix2 k p) * rhs (ix2 k q) := by
  simp only [matmul]
  rw [Ideal.matmul_constant_zero_apply, ← Equiv.sum_comp (contrEquiv1 dot_S8x3200_S8x256_S3200x256_0_0_1_1_n_n 8 rfl rfl).symm]
  refine Finset.sum_congr rfl fun k _ => ?_
  have hk := contrEquiv1_symm_val dot_S8x3200_S8x256_S3200x256_0_0_1_1_n_n 8 rfl rfl k
  have el : dot_S8x3200_S8x256_S3200x256_0_0_1_1_n_n.lhsIdx (ix2 p q) ((contrEquiv1 dot_S8x3200_S8x256_S3200x256_0_0_1_1_n_n 8 rfl rfl).symm k) = ix2 k p := funext fun a => Fin.ext (by
    match a with
    | ⟨0, _⟩ => exact (lhs_l1_0 _ _).trans hk
    | ⟨1, _⟩ => exact lhs_l1_1 _ _)
  have er : dot_S8x3200_S8x256_S3200x256_0_0_1_1_n_n.rhsIdx (ix2 p q) ((contrEquiv1 dot_S8x3200_S8x256_S3200x256_0_0_1_1_n_n 8 rfl rfl).symm k) = ix2 k q := funext fun a => Fin.ext (by
    match a with
    | ⟨0, _⟩ => exact (rhs_l1_0 _ _).trans hk
    | ⟨1, _⟩ => exact rhs_l1_1 _ _)
  rw [el, er]

-- a rows-by-columns product into a zero accumulator, read at an entry, is the sum over the contracted coordinate
theorem mm_l2_apply {φ₁ φ₂ : FTy} (lhs : FVec Ideal S3200x256 φ₁) (rhs : FVec Ideal S256x512 φ₂) (p : Fin 3200) (q : Fin 512) :
    matmul dot_S3200x256_S256x512_S3200x512_1_0_0_1_n_n none lhs rhs (constant (F := Ideal) S3200x512 .f32 0x00000000#32) (ix2 p q)
      = ∑ k : Fin 256, lhs (ix2 p k) * rhs (ix2 k q) :=
  (congrFun (matmul_zero_eq_dotGeneral _ none lhs rhs) (ix2 p q)).trans (StackMember.dotGeneral_plain_apply none lhs rhs p q)

theorem mm_l3_apply {φ₁ φ₂ : FTy} (lhs : FVec Ideal S3200x512 φ₁) (rhs : FVec Ideal S512x256 φ₂) (p : Fin 3200) (q : Fin 256) :
    matmul dot_S3200x512_S512x256_S3200x256_1_0_0_1_n_n none lhs rhs (constant (F := Ideal) S3200x256 .f32 0x00000000#32) (ix2 p q)
      = ∑ k : Fin 512, lhs (ix2 p k) * rhs (ix2 k q) :=
  (congrFun (matmul_zero_eq_dotGeneral _ none lhs rhs) (ix2 p q)).trans (StackMember.dotGeneral_plain_apply none lhs rhs p q)

theorem mm_l4_apply {φ₁ φ₂ : FTy} (lhs : FVec Ideal S3200x256 φ₁) (rhs : FVec Ideal S256x128 φ₂) (p : Fin 3200) (q : Fin 128) :
    matmul dot_S3200x256_S256x128_S3200x128_1_0_0_1_n_n none lhs rhs (constant (F := Ideal) S3200x128 .f32 0x00000000#32) (ix2 p q)
      = ∑ k : Fin 256, lhs (ix2 p k) * rhs (ix2 k q) :=
  (congrFun (matmul_zero_eq_dotGeneral _ none lhs rhs) (ix2 p q)).trans (StackMember.dotGeneral_plain_apply none lhs rhs p q)

theorem lhs_lbl_0 (i : S3200x1.Idx) (q : dot_S128x3200_S128x1_S3200x1_0_0_1_1_n_n.contr.Idx) :
    (dot_S128x3200_S128x1_S3200x1_0_0_1_1_n_n.lhsIdx i q 0).val = (q ⟨0, by decide⟩).val :=
  dot_S128x3200_S128x1_S3200x1_0_0_1_1_n_n.lhsIdx_val_of_single rfl i q
theorem lhs_lbl_1 (i : S3200x1.Idx) (q : dot_S128x3200_S128x1_S3200x1_0_0_1_1_n_n.contr.Idx) :
    (dot_S128x3200_S128x1_S3200x1_0_0_1_1_n_n.lhsIdx i q 1).val = (i 0).val := by
  unfold DotDims.lhsIdx
  rw [dif_neg (show ¬(1 : Fin S128x3200.rank) ∈ dot_S128x3200_S128x1_S3200x1_0_0_1_1_n_n.lhsBatch by decide), dif_pos (show (1 : Fin S128x3200.rank) ∈ dot_S128x3200_S128x1_S3200x1_0_0_1_1_n_n.lhsNonContracting by decide)]
  rfl
theorem rhs_lbl_0 (i : S3200x1.Idx) (q : dot_S128x3200_S128x1_S3200x1_0_0_1_1_n_n.contr.Idx) :
    (dot_S128x3200_S128x1_S3200x1_0_0_1_1_n_n.rhsIdx i q 0).val = (q ⟨0, by decide⟩).val :=
  dot_S128x3200_S128x1_S3200x1_0_0_1_1_n_n.rhsIdx_val_of_single rfl i q
theorem rhs_lbl_1 (i : S3200x1.Idx) (q : dot_S128x3200_S128x1_S3200x1_0_0_1_1_n_n.contr.Idx) :
    (dot_S128x3200_S128x1_S3200x1_0_0_1_1_n_n.rhsIdx i q 1).val = (i 1).val := by
  unfold DotDims.rhsIdx
  rw [dif_neg (show ¬(1 : Fin S128x1.rank) ∈ dot_S128x3200_S128x1_S3200x1_0_0_1_1_n_n.rhsBatch by decide), dif_pos (show (1 : Fin S128x1.rank) ∈ dot_S128x3200_S128x1_S3200x1_0_0_1_1_n_n.rhsNonContracting by decide)]
  rfl

theorem mm_lbl_apply {φ₁ φ₂ : FTy} (lhs : FVec Ideal S128x3200 φ₁) (rhs : FVec Ideal S128x1 φ₂) (p : Fin 3200) (q : Fin 1) :
    matmul dot_S128x3200_S128x1_S3200x1_0_0_1_1_n_n none lhs rhs (constant (F := Ideal) S3200x1 .f32 0x00000000#32) (ix2 p q)
      = ∑ k : Fin 128, lhs (ix2 k p) * rhs (ix2 k q) := by
  simp only [matmul]
  rw [Ideal.matmul_constant_zero_apply, ← Equiv.sum_comp (contrEquiv1 dot_S128x3200_S128x1_S3200x1_0_0_1_1_n_n 128 rfl rfl).symm]
  refine Finset.sum_congr rfl fun k _ => ?_
  have hk := contrEquiv1_symm_val dot_S128x3200_S128x1_S3200x1_0_0_1_1_n_n 128 rfl rfl k
  have el : dot_S128x3200_S128x1_S3200x1_0_0_1_1_n_n.lhsIdx (ix2 p q) ((contrEquiv1 dot_S128x3200_S128x1_S3200x1_0_0_1_1_n_n 128 rfl rfl).symm k) = ix2 k p := funext fun a => Fin.ext (by
    match a with
    | ⟨0, _⟩ => exact (lhs_lbl_0 _ _).trans hk
    | ⟨1, _⟩ => exact lhs_lbl_1 _ _)
  have er : dot_S128x3200_S128x1_S3200x1_0_0_1_1_n_n.rhsIdx (ix2 p q) ((contrEquiv1 dot_S128x3200_S128x1_S3200x1_0_0_1_1_n_n 128 rfl rfl).symm k) = ix2 k q := funext fun a => Fin.ext (by
    match a with
    | ⟨0, _⟩ => exact (rhs_lbl_0 _ _).trans hk
    | ⟨1, _⟩ => exact rhs_lbl_1 _ _)
  rw [el, er]

theorem mm_sums_apply {φ₁ φ₂ : FTy} (lhs : FVec Ideal S128x3200 φ₁) (rhs : FVec Ideal S3200x128 φ₂) (p : Fin 128) (q : Fin 128) :
    matmul dot_S128x3200_S3200x128_S128x128_1_0_0_1_n_n none lhs rhs (constant (F := Ideal) S128x128 .f32 0x00000000#32) (ix2 p q)
      = ∑ k : Fin 3200, lhs (ix2 p k) * rhs (ix2 k q) :=
  (congrFun (matmul_zero_eq_dotGeneral _ none lhs rhs) (ix2 p q)).trans (StackMember.dotGeneral_plain_apply none lhs rhs p q)

theorem sitofp_one : (FloatOps.sitofp (F := Ideal) FTy.f32 (BitVec.setWidth 32 1#1) : EReal) = 1 := by
  show (((BitVec.setWidth 32 1#1).toInt : ℝ) : EReal) = 1
  rw [show (BitVec.setWidth 32 (1#1)).toInt = 1 by decide, Int.cast_one, EReal.coe_one]

theorem sitofp_zero : (FloatOps.sitofp (F := Ideal) FTy.f32 (BitVec.setWidth 32 0#1) : EReal) = 0 := by
  show (((BitVec.setWidth 32 0#1).toInt : ℝ) : EReal) = 0
  rw [show (BitVec.setWidth 32 (0#1)).toInt = 0 by decide, Int.cast_zero, EReal.coe_zero]

theorem toInt_ofNat_class (c : Fin 128) : (BitVec.ofNat 32 c.val).toInt = (c.val : ℤ) := by
  have hc := c.isLt
  unfold BitVec.toInt
  rw [BitVec.toNat_ofNat, Nat.mod_eq_of_lt (by omega), if_pos (by omega)]

theorem lblWeight_apply (v60 : Vec Ideal S128x1 .f32) (c : Fin 128) :
    (truncf (F := Ideal) .bf16 (select (cmpf .ogt (shapeCast S128x1 v60 shapeCasts_S128x1_S128x1) (broadcast S128x1 (Scalar.ofBits (F := Ideal) .f32 0x3F000000#32)))
        (sitofp (F := Ideal) .f32 (iota .tc S128x1 32 [0] iota_S128x1_d0_w32)) (broadcast S128x1 (Scalar.ofBits (F := Ideal) .f32 0xBF800000#32))) bitsLt_bf16_f32 : FVec Ideal S128x1 .bf16) (ix2 c (0 : Fin 1))
      = if Ideal.cmp .ogt (v60 (ix2 c (0 : Fin 1))) (Ideal.ofBits .f32 0x3F000000#32) = 1#1
          then (((c.val : ℕ) : ℝ) : EReal) else Cert.Spec.negOne := by
  rw [truncf_apply, select_apply, cmpf_apply, sitofp_apply, iota_single_apply, shapeCast_self, broadcast_apply, broadcast_apply]
  show Scalar.select (Ideal.cmp .ogt (v60 (ix2 c (0 : Fin 1))) (Ideal.ofBits .f32 0x3F000000#32))
      (((BitVec.ofNat 32 c.val).toInt : ℝ) : EReal) (Ideal.ofBits .f32 0xBF800000#32) = _
  rw [toInt_ofNat_class, Int.cast_natCast]
  rfl

theorem ofBits_zero_bf16 : (FloatOps.ofBits (F := Ideal) .bf16 0x0000#16 : EReal) = 0 := Cert.Consts.ofBits_zero_bf16

theorem ofBits_zero_f32' : (FloatOps.ofBits (F := Ideal) .f32 0x00000000#32 : EReal) = 0 := Ideal.ofBits_zero_f32

def f4 (v34 : FVec Ideal S3200x256 .bf16) (v35 : Vec Ideal S256x128 .bf16) (v38 : Vec Ideal S1x128 .f32) (r : Fin 3200) (d : Fin 128) : EReal :=
  max ((∑ k : Fin 256, v34 (ix2 r k) * v35 (ix2 k d)) + v38 (ix2 (0 : Fin 1) d)) 0

theorem pay4_apply (v34 : FVec Ideal S3200x256 .bf16) (v35 : Vec Ideal S256x128 .bf16) (v38 : Vec Ideal S1x128 .f32) (r : Fin 3200) (d : Fin 128) :
    k0_pay4 (F := Ideal) v34 v35 v38 (ix2 r d)
      = Ideal.div (f4 v34 v35 v38 r d) (max (Ideal.sqrt (∑ e : Fin 128, f4 v34 v35 v38 r e * f4 v34 v35 v38 r e)) Cert.Spec.eps) := by
  unfold k0_pay4
  rw [divf_apply, broadcastTo_a1_ab_apply, maximumf_apply, maximumf_apply, addf_apply, mm_l4_apply, broadcastTo_1b_ab_apply,
    shapeCast_self, shapeCast_self, broadcast_apply, broadcast_apply]
  show Ideal.div _ (max (Ideal.sqrt (shapeCast S3200x1 _ shapeCasts_S3200_S3200x1 (ix2 r (0 : Fin 1)))) _) = _
  rw [shapeCast_a_a1_apply, rowSum_apply]
  simp only [mulf_apply, maximumf_apply, addf_apply, mm_l4_apply, broadcastTo_1b_ab_apply, broadcast_apply, ofBits_zero_f32']
  rfl

def t1 (v3 : Vec Ideal S8x3200 .bf16) (v5 : Vec Ideal S8x256 .bf16) (v8 : Vec Ideal S1x256 .f32) (r : Fin 3200) (j : Fin 256) : EReal :=
  max ((∑ k : Fin 8, v3 (ix2 k r) * v5 (ix2 k j)) + v8 (ix2 (0 : Fin 1) j)) 0

def t2 (v3 : Vec Ideal S8x3200 .bf16) (v5 : Vec Ideal S8x256 .bf16) (v8 : Vec Ideal S1x256 .f32)
    (v15 : Vec Ideal S256x512 .bf16) (v18 : Vec Ideal S1x512 .f32) (r : Fin 3200) (j : Fin 512) : EReal :=
  max ((∑ k : Fin 256, t1 v3 v5 v8 r k * v15 (ix2 k j)) + v18 (ix2 (0 : Fin 1) j)) 0

def t3 (v3 : Vec Ideal S8x3200 .bf16) (v5 : Vec Ideal S8x256 .bf16) (v8 : Vec Ideal S1x256 .f32)
    (v15 : Vec Ideal S256x512 .bf16) (v18 : Vec Ideal S1x512 .f32) (v25 : Vec Ideal S512x256 .bf16) (v28 : Vec Ideal S1x256 .f32)
    (r : Fin 3200) (j : Fin 256) : EReal :=
  max ((∑ k : Fin 512, t2 v3 v5 v8 v15 v18 r k * v25 (ix2 k j)) + v28 (ix2 (0 : Fin 1) j)) 0

theorem pay3_apply (v3 : Vec Ideal S8x3200 .bf16) (v5 : Vec Ideal S8x256 .bf16) (v8 : Vec Ideal S1x256 .f32)
    (v15 : Vec Ideal S256x512 .bf16) (v18 : Vec Ideal S1x512 .f32) (v25 : Vec Ideal S512x256 .bf16) (v28 : Vec Ideal S1x256 .f32)
    (r : Fin 3200) (j : Fin 256) :
    k0_pay3 (F := Ideal) v3 v5 v8 v15 v18 v25 v28 (ix2 r j) = t3 v3 v5 v8 v15 v18 v25 v28 r j := by
  unfold k0_pay3
  simp only [maximumf_apply, truncf_apply, addf_apply, broadcast_apply, shapeCast_self, mm_l1_apply, mm_l2_apply, mm_l3_apply,
    broadcastTo_1b_ab_apply, ofBits_zero_bf16]
  rfl

end Pay

open Pay

theorem tileFeat_apply (v3 : Vec Ideal S8x3200 .bf16) (v5 : Vec Ideal S8x256 .bf16) (v8 : Vec Ideal S1x256 .f32)
    (v15 : Vec Ideal S256x512 .bf16) (v18 : Vec Ideal S1x512 .f32) (v25 : Vec Ideal S512x256 .bf16) (v28 : Vec Ideal S1x256 .f32)
    (v35 : Vec Ideal S256x128 .bf16) (v38 : Vec Ideal S1x128 .f32)
    (w1 : (⟨2, ![7, 256]⟩ : Shape).Idx → EReal) (c1 : (⟨1, ![256]⟩ : Shape).Idx → EReal) (c2 : (⟨1, ![512]⟩ : Shape).Idx → EReal)
    (c3 : (⟨1, ![256]⟩ : Shape).Idx → EReal) (c4 : (⟨1, ![128]⟩ : Shape).Idx → EReal)
    (r : Fin 3200) (d : Fin 128)
    (hw1 : ∀ (k : Fin 7) (j : Fin 256), v5 (ix2 (⟨k.val, by omega⟩ : Fin 8) j) = w1 (ix2 k j))
    (hpad : ∀ j : Fin 256, v3 (ix2 (7 : Fin 8) r) * v5 (ix2 (7 : Fin 8) j) = 0)
    (hc1 : ∀ j : Fin 256, v8 (ix2 (0 : Fin 1) j) = c1 (ix1 j)) (hc2 : ∀ j : Fin 512, v18 (ix2 (0 : Fin 1) j) = c2 (ix1 j))
    (hc3 : ∀ j : Fin 256, v28 (ix2 (0 : Fin 1) j) = c3 (ix1 j)) (hc4 : ∀ j : Fin 128, v38 (ix2 (0 : Fin 1) j) = c4 (ix1 j)) :
    k0_pay4 (F := Ideal) (k0_pay3 v3 v5 v8 v15 v18 v25 v28) v35 v38 (ix2 r d)
      = Cert.Spec.rfeatn w1 c1 v15 c2 v25 c3 v35 c4 (fun k : Fin 7 => v3 (ix2 (⟨k.val, by omega⟩ : Fin 8) r)) d := by

  have h1 : ∀ j : Fin 256, t1 v3 v5 v8 r j
      = Cert.Spec.ract1 w1 c1 (fun k : Fin 7 => v3 (ix2 (⟨k.val, by omega⟩ : Fin 8) r)) j := by
    intro j
    unfold t1 Cert.Spec.ract1 Cert.Spec.rlin1
    rw [hc1 j, Fin.sum_univ_castSucc]
    have hlast : v3 (ix2 (Fin.last 7) r) * v5 (ix2 (Fin.last 7) j) = 0 := hpad j
    rw [hlast, add_zero]
    refine congrArg (fun s => max (s + c1 (ix1 j)) 0) (Finset.sum_congr rfl fun k _ => ?_)
    exact congrArg (fun t => v3 (ix2 (⟨k.val, by omega⟩ : Fin 8) r) * t) (hw1 k j)
  have h2 : ∀ j : Fin 512, t2 v3 v5 v8 v15 v18 r j
      = Cert.Spec.ract2 w1 c1 v15 c2 (fun k : Fin 7 => v3 (ix2 (⟨k.val, by omega⟩ : Fin 8) r)) j := by
    intro j
    unfold t2 Cert.Spec.ract2 Cert.Spec.rlin2
    rw [hc2 j]
    exact congrArg (fun s => max (s + c2 (ix1 j)) 0) (Finset.sum_congr rfl fun k _ => by rw [h1 k])
  have h3 : ∀ j : Fin 256, t3 v3 v5 v8 v15 v18 v25 v28 r j
      = Cert.Spec.ract3 w1 c1 v15 c2 v25 c3 (fun k : Fin 7 => v3 (ix2 (⟨k.val, by omega⟩ : Fin 8) r)) j := by
    intro j
    unfold t3 Cert.Spec.ract3 Cert.Spec.rlin3
    rw [hc3 j]
    exact congrArg (fun s => max (s + c3 (ix1 j)) 0) (Finset.sum_congr rfl fun k _ => by rw [h2 k])
  have h4 : ∀ e : Fin 128, f4 (k0_pay3 (F := Ideal) v3 v5 v8 v15 v18 v25 v28) v35 v38 r e
      = Cert.Spec.rfeat w1 c1 v15 c2 v25 c3 v35 c4 (fun k : Fin 7 => v3 (ix2 (⟨k.val, by omega⟩ : Fin 8) r)) e := by
    intro e
    unfold f4 Cert.Spec.rfeat Cert.Spec.rlin4
    rw [hc4 e]
    exact congrArg (fun s => max (s + c4 (ix1 e)) 0) (Finset.sum_congr rfl fun k _ => by rw [pay3_apply, h3 k])
  rw [pay4_apply]
  unfold Cert.Spec.rfeatn Cert.Spec.rssq
  rw [h4 d, Finset.sum_congr rfl fun e _ => by rw [h4 e]]

theorem onehot_apply (v52 : Vec Ideal S1x3200 .i32) (c : Fin 128) (r : Fin 3200) :
    k0_pay5 (F := Ideal) v52 (ix2 c r) = if v52 (ix2 (0 : Fin 1) r) = BitVec.ofNat 32 c.val then (1 : EReal) else 0 := by
  unfold k0_pay5
  rw [truncf_apply, sitofp_apply, extui_apply]
  show FloatOps.sitofp FTy.f32 (BitVec.setWidth 32 (IntOp.cmpi .eq
      (iota Kind.tc S128x3200 32 [0] iota_S128x3200_d0_w32 (ix2 c r))
      (broadcastTo S128x3200 (shapeCast S1x3200 v52 shapeCasts_S1x3200_S1x3200) broadcasts_S1x3200_S128x3200 (ix2 c r)))) = _
  rw [iota_single_apply, broadcastTo_1b_ab_apply, shapeCast_self]
  show FloatOps.sitofp FTy.f32 (BitVec.setWidth 32 (IntOp.cmpi .eq (BitVec.ofNat 32 c.val) (v52 (ix2 (0 : Fin 1) r)))) = _
  by_cases h : v52 (ix2 (0 : Fin 1) r) = BitVec.ofNat 32 c.val
  · rw [if_pos h, IntOp.cmpi_eq.mpr h.symm]
    exact sitofp_one
  · rw [if_neg h, eq_zero_of_ne_one (fun h1 => h (IntOp.cmpi_eq.mp h1).symm)]
    exact Pay.sitofp_zero

theorem cpTile_apply (v34 : FVec Ideal S3200x256 .bf16) (v35 : Vec Ideal S256x128 .bf16) (v38 : Vec Ideal S1x128 .f32)
    (v52 : Vec Ideal S1x3200 .i32) (v60 : Vec Ideal S128x1 .f32) (r : Fin 3200) (j : Fin 129) :
    k0_pay6 (F := Ideal) v34 v35 v38 v52 v60 (ix2 r j)
      = if h : j.val < 128 then k0_pay4 (F := Ideal) v34 v35 v38 (ix2 r ⟨j.val, h⟩)
        else ∑ c : Fin 128, k0_pay5 (F := Ideal) v52 (ix2 c r)
          * (if Ideal.cmp .ogt (v60 (ix2 c (0 : Fin 1))) (Ideal.ofBits .f32 0x3F000000#32) = 1#1
              then (((c.val : ℕ) : ℝ) : EReal) else Cert.Spec.negOne) := by
  unfold k0_pay6
  by_cases h : j.val < 128
  · rw [dif_pos h]
    exact concatenate_pair_apply_left (1 : Fin S3200x129.rank) _ _ concatenates_S3200x128_S3200x1_S3200x129_d1 (ix2 r j) rfl
      (ix2 r (⟨j.val, h⟩ : Fin 128)) (fun b => match b with | ⟨0, _⟩ => rfl | ⟨1, _⟩ => rfl)
  · rw [dif_neg h]
    have hj : j.val = 128 := by have := j.isLt; omega
    refine (concatenate_pair_apply_right (1 : Fin S3200x129.rank) _ _ concatenates_S3200x128_S3200x1_S3200x129_d1 (ix2 r j) rfl rfl
      (ix2 r (0 : Fin 1)) (fun b hb => match b, hb with | ⟨0, _⟩, _ => rfl | ⟨1, _⟩, hb => absurd (Fin.ext rfl) hb)
      (by show 0 + 128 = j.val; omega)).trans ?_
    rw [mm_lbl_apply]
    exact Finset.sum_congr rfl fun c _ => by rw [lblWeight_apply]

theorem tileSums_apply (v34 : FVec Ideal S3200x256 .bf16) (v35 : Vec Ideal S256x128 .bf16) (v38 : Vec Ideal S1x128 .f32)
    (v52 : Vec Ideal S1x3200 .i32) (c : Fin 128) (d : Fin 128) :
    k0_pay7 (F := Ideal) v34 v35 v38 v52 (ix2 c d)
      = ∑ r : Fin 3200, k0_pay5 (F := Ideal) v52 (ix2 c r) * k0_pay4 (F := Ideal) v34 v35 v38 (ix2 r d) := by
  unfold k0_pay7
  rw [mm_sums_apply]
  rfl

theorem acc_apply (v73 : FVec Ideal S128x128 .f32) (v74 : Vec Ideal S1x128x128 .f32) (c d : Fin 128) :
    k0_pay1 (F := Ideal) v73 v74 (ix3 (0 : Fin 1) c d) = v74 (ix3 (0 : Fin 1) c d) + v73 (ix2 c d) := by
  unfold k0_pay1
  rw [shapeCast_ab_1ab_apply, addf_apply, shapeCast_1ab_ab_apply]

theorem zero_apply (c d : Fin 128) : k0_pay2 (F := Ideal) (ix3 (0 : Fin 1) c d) = 0 := by
  unfold k0_pay2
  rw [shapeCast_ab_1ab_apply, broadcast_apply]
  exact Ideal.ofBits_zero_f32

end Cert.KernelIdeal.Val

end
-- ==== Proof.Val.EntryCounts.lean ====
import proofs.«417753_j63831803953783_3_alg».proof.Proof.Fr.Entry
import proofs.«417753_j63831803953783_3_alg».proof.Proof.Spec
import proofs.«417753_j63831803953783_3_alg».proof.Proof.Consts
import Idealize.ShloMosaic.Lib.StableHlo.Run
import Idealize.ShloMosaic.Lib.StableHlo.Predicate
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (c : Dev nD)

def classMask (y : S4x40000.Idx → BitVec 32) : IVec S13x160000 1 :=
  cmpi .eq
    (broadcastInDim S13x160000 ![0, 1] bcast_S13x1_S13x160000_0_1 (shapeCast S13x1 (iotaInDim S13 32 0) shapeCasts_S13_S13x1))
    (broadcastInDim S13x160000 ![0, 1] bcast_S1x160000_S13x160000_0_1
      (shapeCast S1x160000 (shapeCast S160000 y shapeCasts_S4x40000_S160000) shapeCasts_S160000_S1x160000))

def classCount (y : S4x40000.Idx → BitVec 32) : IVec S13 32 :=
  Host.reduce IntOp.addi (extui 32 (classMask y) natLt_1_32) (constantI S_ 32 0#32) reducesTo_S13x160000_S13_d1 h_S_

theorem classCol_read (cl : Fin 13) (q : Fin 160000) :
    broadcastInDim S13x160000 ![0, 1] bcast_S13x1_S13x160000_0_1 (shapeCast S13x1 (iotaInDim S13 32 0) shapeCasts_S13_S13x1)
      (Predicate.ij cl q) = BitVec.ofNat 32 cl.val := by
  rw [broadcastInDim_apply _ bcast_S13x1_S13x160000_0_1 _ (Predicate.ij cl q) (ix2 cl (0 : Fin 1)) (fun a => match a with
    | ⟨0, _⟩ => by show cl.val = if (13 : Nat) = 1 then 0 else cl.val; rw [if_neg (by decide)]
    | ⟨1, _⟩ => by show 0 = if (1 : Nat) = 1 then 0 else q.val; rw [if_pos rfl])]
  rw [shapeCast_apply _ shapeCasts_S13_S13x1 (ix2 cl (0 : Fin 1)) (ix1 cl)
    (by rw [Shape.rowMajor_val_one, Shape.rowMajor_val_two]; show cl.val = cl.val * 1 + 0; omega)]
  rfl

theorem labelRow_read (y : S4x40000.Idx → BitVec 32) (cl : Fin 13) (q : Fin 160000) :
    broadcastInDim S13x160000 ![0, 1] bcast_S1x160000_S13x160000_0_1
      (shapeCast S1x160000 (shapeCast S160000 y shapeCasts_S4x40000_S160000) shapeCasts_S160000_S1x160000)
      (Predicate.ij cl q) = Cert.Spec.lab y q := by
  rw [broadcastInDim_apply _ bcast_S1x160000_S13x160000_0_1 _ (Predicate.ij cl q) (ix2 (0 : Fin 1) q) (fun a => match a with
    | ⟨0, _⟩ => by show 0 = if (1 : Nat) = 1 then 0 else cl.val; rw [if_pos rfl]
    | ⟨1, _⟩ => by show q.val = if (160000 : Nat) = 1 then 0 else q.val; rw [if_neg (by decide)])]
  rw [shapeCast_apply _ shapeCasts_S160000_S1x160000 (ix2 (0 : Fin 1) q) (ix1 q)
    (by rw [Shape.rowMajor_val_one, Shape.rowMajor_val_two]; show q.val = 0 * 160000 + q.val; omega)]
  rw [shapeCast_apply y shapeCasts_S4x40000_S160000 (ix1 q) (ix2 (Cert.Spec.pb q) (Cert.Spec.pn q))
    (by rw [Shape.rowMajor_val_two, Shape.rowMajor_val_one]; show q.val / 40000 * 40000 + q.val % 40000 = q.val; omega)]
  rfl

theorem classMask_apply (y : S4x40000.Idx → BitVec 32) (cl : Fin 13) (q : Fin 160000) :
    classMask y (Predicate.ij cl q) = 1#1 ↔ Cert.Spec.lab y q = BitVec.ofNat 32 cl.val := by
  show IntOp.cmpi .eq _ _ = 1#1 ↔ _
  rw [Predicate.cmpi_eq_iff, classCol_read, labelRow_read]
  exact eq_comm

theorem classCount_toNat (y : S4x40000.Idx → BitVec 32) (cl : Fin 13) :
    (classCount y (ix1 cl)).toNat
      = (Finset.univ.filter fun p : Fin 160000 => Cert.Spec.lab y p = BitVec.ofNat 32 cl.val).card := by
  refine (Predicate.toNat_reduce_count_cols (n := 13) (m := 160000) (by norm_num) (classMask y) natLt_1_32
    reducesTo_S13x160000_S13_d1 h_S_ (ix1 cl)).trans ?_
  refine congrArg Finset.card (Finset.ext fun q => ?_)
  simp only [Finset.mem_filter, Finset.mem_univ, true_and]
  exact classMask_apply y cl q

theorem classCard_le (y : S4x40000.Idx → BitVec 32) (cl : Fin 13) :
    (Finset.univ.filter fun p : Fin 160000 => Cert.Spec.lab y p = BitVec.ofNat 32 cl.val).card ≤ 160000 := by
  refine (Finset.card_le_univ _).trans ?_
  simp

theorem classCount_toInt (y : S4x40000.Idx → BitVec 32) (cl : Fin 13) :
    ((classCount y (ix1 cl)).toInt : ℝ)
      = ((Finset.univ.filter fun p : Fin 160000 => Cert.Spec.lab y p = BitVec.ofNat 32 cl.val).card : ℝ) := by
  have hn := classCount_toNat y cl
  have hle := classCard_le y cl
  rw [Predicate.toInt_eq_toNat_of_lt (by omega), hn, Int.cast_natCast]

theorem e_counts : (Fr.V m c main_v17 : S13.Idx → EReal)
    = sitofp (F := Ideal) .f32 (classCount (m ((c : Thread nD τ).loc main_arg2) : S4x40000.Idx → BitVec 32)) := by
  dsimp only [Fr.V, Fr.V0]
  simp only [Gen.hostOps0, Gen.hostOps0_1, Gen.hostOps0_2, List.flatten_cons, List.flatten_nil, List.append_nil, List.cons_append, List.nil_append]
  after_results
  rfl

theorem e_validbit : (Fr.V m c main_v19 : S13.Idx → BitVec 1)
    = cmpf (F := Ideal) .oge (sitofp (F := Ideal) .f32 (classCount (m ((c : Thread nD τ).loc main_arg2) : S4x40000.Idx → BitVec 32)))
        (broadcastInDim S13 ![] bcast_S_S13 (constant (F := Ideal) S_ .f32 0x43800000#32)) := by
  dsimp only [Fr.V, Fr.V0]
  simp only [Gen.hostOps0, Gen.hostOps0_1, Gen.hostOps0_2, List.flatten_cons, List.flatten_nil, List.append_nil, List.cons_append, List.nil_append]
  after_results
  rfl

theorem counts_value (cl : Fin 13) :
    (Fr.V m c main_v17 : S13.Idx → EReal) (ix1 cl) = Cert.Spec.cnt (m ((c : Thread nD τ).loc main_arg2)) cl := by
  rw [e_counts]
  show (((classCount (m ((c : Thread nD τ).loc main_arg2) : S4x40000.Idx → BitVec 32) (ix1 cl)).toInt : ℝ) : EReal) = _
  rw [classCount_toInt]
  rfl

theorem validbit_value (cl : Fin 13) :
    (Fr.V m c main_v19 : S13.Idx → BitVec 1) (ix1 cl) = 1#1 ↔ Cert.Spec.valid (m ((c : Thread nD τ).loc main_arg2)) cl := by
  rw [e_validbit]
  show BitVec.ofBool (decide (Ideal.ofBits .f32 0x43800000#32 ≤ (((classCount (m ((c : Thread nD τ).loc main_arg2) : S4x40000.Idx → BitVec 32) (ix1 cl)).toInt : ℝ) : EReal))) = 1#1 ↔ _
  rw [Predicate.ofBool_eq_one_iff, decide_eq_true_eq, Cert.Consts.ofBits_256, classCount_toInt, EReal.coe_le_coe_iff,
    Nat.ofNat_le_cast]
  rfl

end Cert.KernelIdeal.Val

end
-- ==== Proof.Val.EntryValues.lean ====
import proofs.«417753_j63831803953783_3_alg».proof.Proof.Fr.Entry
import proofs.«417753_j63831803953783_3_alg».proof.Proof.Spec
import proofs.«417753_j63831803953783_3_alg».proof.Proof.Val.EntryCounts
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (c : Dev nD)

namespace EntryValues

theorem e_labels : (Fr.V m c main_v8 : S1x160000.Idx → BitVec 32)
    = shapeCast S1x160000 (shapeCast S160000 (m ((c : Thread nD τ).loc main_arg2) : S4x40000.Idx → BitVec 32) shapeCasts_S4x40000_S160000) shapeCasts_S160000_S1x160000 := by
  dsimp only [Fr.V, Fr.V0]
  simp only [Gen.hostOps0, Gen.hostOps0_1, Gen.hostOps0_2, List.flatten_cons, List.flatten_nil, List.append_nil, List.cons_append, List.nil_append]
  after_results
  rfl

theorem flat_read {α : Type} (y : S4x40000.Idx → α) (p : Fin 160000) :
    shapeCast S160000 y shapeCasts_S4x40000_S160000 (ix1 p) = y (ix2 (Cert.Spec.pb p) (Cert.Spec.pn p)) :=
  shapeCast_apply y shapeCasts_S4x40000_S160000 (ix1 p) (ix2 (Cert.Spec.pb p) (Cert.Spec.pn p))
    (by rw [Shape.rowMajor_val_two, Shape.rowMajor_val_one]; show p.val / 40000 * 40000 + p.val % 40000 = p.val; omega)

theorem row_read {α : Type} {n : Nat} (v : (⟨1, ![n]⟩ : Shape).Idx → α) (h : (⟨1, ![n]⟩ : Shape).ShapeCasts ⟨2, ![1, n]⟩) (p : Fin n) :
    shapeCast ⟨2, ![1, n]⟩ v h (ix2 (0 : Fin 1) p) = v (ix1 p) :=
  shapeCast_apply v h (ix2 (0 : Fin 1) p) (ix1 p)
    (by rw [Shape.rowMajor_val_one, Shape.rowMajor_val_two]; show p.val = 0 * n + p.val; omega)

theorem e_c1 : (Fr.V m c main_v31 : S1x256.Idx → EReal)
    = shapeCast S1x256 (m ((c : Thread nD τ).loc main_arg4) : S256.Idx → EReal) shapeCasts_S256_S1x256 := by
  dsimp only [Fr.V, Fr.V0]
  simp only [Gen.hostOps0, Gen.hostOps0_1, Gen.hostOps0_2, List.flatten_cons, List.flatten_nil, List.append_nil, List.cons_append, List.nil_append]
  after_results
  rfl
theorem e_c2 : (Fr.V m c main_v32 : S1x512.Idx → EReal)
    = shapeCast S1x512 (m ((c : Thread nD τ).loc main_arg6) : S512.Idx → EReal) shapeCasts_S512_S1x512 := by
  dsimp only [Fr.V, Fr.V0]
  simp only [Gen.hostOps0, Gen.hostOps0_1, Gen.hostOps0_2, List.flatten_cons, List.flatten_nil, List.append_nil, List.cons_append, List.nil_append]
  after_results
  rfl
theorem e_c3 : (Fr.V m c main_v33 : S1x256.Idx → EReal)
    = shapeCast S1x256 (m ((c : Thread nD τ).loc main_arg8) : S256.Idx → EReal) shapeCasts_S256_S1x256 := by
  dsimp only [Fr.V, Fr.V0]
  simp only [Gen.hostOps0, Gen.hostOps0_1, Gen.hostOps0_2, List.flatten_cons, List.flatten_nil, List.append_nil, List.cons_append, List.nil_append]
  after_results
  rfl
theorem e_c4 : (Fr.V m c main_v34 : S1x128.Idx → EReal)
    = shapeCast S1x128 (m ((c : Thread nD τ).loc main_arg10) : S128.Idx → EReal) shapeCasts_S128_S1x128 := by
  dsimp only [Fr.V, Fr.V0]
  simp only [Gen.hostOps0, Gen.hostOps0_1, Gen.hostOps0_2, List.flatten_cons, List.flatten_nil, List.append_nil, List.cons_append, List.nil_append]
  after_results
  rfl

theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

local macro "after_results3" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

theorem e_combined : (Fr.V m c main_v6 : S8x160000.Idx → EReal)
    = truncf .bf16 (transpose S8x160000 [1, 0]
        (concatenate S160000x8 1
          [⟨S160000x4, shapeCast S160000x4 (transpose S4x40000x4 [0, 2, 1] (m ((c : Thread nD τ).loc main_arg1) : S4x4x40000.Idx → EReal)
              transposes_S4x4x40000_S4x40000x4_0_2_1) shapeCasts_S4x40000x4_S160000x4⟩,
           ⟨S160000x3, shapeCast S160000x3 (m ((c : Thread nD τ).loc main_arg0) : S4x40000x3.Idx → EReal) shapeCasts_S4x40000x3_S160000x3⟩,
           ⟨S160000x1, broadcastInDim S160000x1 ![] bcast_S_S160000x1 (constant (F := Ideal) S_ .f32 0x00000000#32)⟩]
          concatenates_S160000x4_S160000x3_S160000x1_S160000x8_d1)
        transposes_S160000x8_S8x160000_1_0) bitsLt_bf16_f32 := by
  dsimp only [Fr.V, Fr.V0]
  simp only [Gen.hostOps0, Gen.hostOps0_1, Gen.hostOps0_2, List.flatten_cons, List.flatten_nil, List.append_nil, List.cons_append, List.nil_append]
  after_results3
  rfl

theorem rows_read {α : Type} {w : Nat} (z : (⟨3, ![4, 40000, w]⟩ : Shape).Idx → α)
    (h : (⟨3, ![4, 40000, w]⟩ : Shape).ShapeCasts ⟨2, ![160000, w]⟩) (p : Fin 160000) (k : Fin w) :
    shapeCast ⟨2, ![160000, w]⟩ z h (ix2 p k) = z (ix3 (Cert.Spec.pb p) (Cert.Spec.pn p) k) :=
  shapeCast_apply z h (ix2 p k) (ix3 (Cert.Spec.pb p) (Cert.Spec.pn p) k)
    (by rw [Shape.rowMajor_val_three, Shape.rowMajor_val_two]
        show (p.val / 40000 * 40000 + p.val % 40000) * w + k.val = p.val * w + k.val
        rw [Nat.div_add_mod' p.val 40000])

theorem concat3_read {α : Type} (X2 : S160000x4.Idx → α) (X0 : S160000x3.Idx → α) (X3 : S160000x1.Idx → α)
    (p : Fin 160000) (k : Fin 8) :
    concatenate S160000x8 1 [⟨S160000x4, X2⟩, ⟨S160000x3, X0⟩, ⟨S160000x1, X3⟩]
        concatenates_S160000x4_S160000x3_S160000x1_S160000x8_d1 (ix2 p k)
      = if h4 : k.val < 4 then X2 (ix2 p (⟨k.val, h4⟩ : Fin 4))
        else if h7 : k.val < 7 then X0 (ix2 p (⟨k.val - 4, by omega⟩ : Fin 3)) else X3 (ix2 p (0 : Fin 1)) := by
  by_cases h4 : k.val < 4
  · rw [dif_pos h4]
    exact concatenate_apply_piece (t := S160000x8) (1 : Fin 2) [⟨S160000x4, X2⟩, ⟨S160000x3, X0⟩, ⟨S160000x1, X3⟩]
      concatenates_S160000x4_S160000x3_S160000x1_S160000x8_d1 (ix2 p k) 0 (by show 0 < 3; omega)
      S160000x4 X2 rfl rfl 0 rfl (ix2 p (⟨k.val, h4⟩ : Fin 4))
      (fun b => match b with | ⟨0, _⟩ => fun _ => rfl | ⟨1, _⟩ => fun hb => absurd rfl hb)
      (by show 0 + k.val = k.val; omega)
  · rw [dif_neg h4]
    by_cases h7 : k.val < 7
    · rw [dif_pos h7]
      exact concatenate_apply_piece (t := S160000x8) (1 : Fin 2) [⟨S160000x4, X2⟩, ⟨S160000x3, X0⟩, ⟨S160000x1, X3⟩]
        concatenates_S160000x4_S160000x3_S160000x1_S160000x8_d1 (ix2 p k) 1 (by show 1 < 3; omega)
        S160000x3 X0 rfl rfl 4 rfl (ix2 p (⟨k.val - 4, by omega⟩ : Fin 3))
        (fun b => match b with | ⟨0, _⟩ => fun _ => rfl | ⟨1, _⟩ => fun hb => absurd rfl hb)
        (by show 4 + (k.val - 4) = k.val; omega)
    · rw [dif_neg h7]
      exact concatenate_apply_piece (t := S160000x8) (1 : Fin 2) [⟨S160000x4, X2⟩, ⟨S160000x3, X0⟩, ⟨S160000x1, X3⟩]
        concatenates_S160000x4_S160000x3_S160000x1_S160000x8_d1 (ix2 p k) 2 (by show 2 < 3; omega)
        S160000x1 X3 rfl rfl 7 rfl (ix2 p (0 : Fin 1))
        (fun b => match b with | ⟨0, _⟩ => fun _ => rfl | ⟨1, _⟩ => fun hb => absurd rfl hb)
        (by show 7 + 0 = k.val; have := k.isLt; omega)

theorem combined_read (pos : S4x40000x3.Idx → EReal) (x : S4x4x40000.Idx → EReal) (k : Fin 8) (p : Fin 160000) :
    (truncf .bf16 (transpose S8x160000 [1, 0]
        (concatenate S160000x8 1
          [⟨S160000x4, shapeCast S160000x4 (transpose S4x40000x4 [0, 2, 1] x transposes_S4x4x40000_S4x40000x4_0_2_1) shapeCasts_S4x40000x4_S160000x4⟩,
           ⟨S160000x3, shapeCast S160000x3 pos shapeCasts_S4x40000x3_S160000x3⟩,
           ⟨S160000x1, broadcastInDim S160000x1 ![] bcast_S_S160000x1 (constant (F := Ideal) S_ .f32 0x00000000#32)⟩]
          concatenates_S160000x4_S160000x3_S160000x1_S160000x8_d1)
        transposes_S160000x8_S8x160000_1_0) bitsLt_bf16_f32 : S8x160000.Idx → EReal) (ix2 k p)
      = if h : k.val < 7 then Cert.Spec.inp pos x p ⟨k.val, h⟩ else (0 : EReal) := by
  rw [truncf_apply, transpose_ix2_apply, concat3_read]
  by_cases h4 : k.val < 4
  · rw [dif_pos h4, rows_read, transpose_ix3_021_apply, dif_pos (by omega : k.val < 7)]
    unfold Cert.Spec.inp
    rw [dif_pos h4]
  · rw [dif_neg h4]
    by_cases h7 : k.val < 7
    · rw [dif_pos h7, rows_read, dif_pos h7]
      unfold Cert.Spec.inp
      rw [dif_neg h4]
    · rw [dif_neg h7, broadcastInDim_apply _ bcast_S_S160000x1 _ _ ix0 (fun a => a.elim0), constant_apply,
        Ideal.ofBits_zero_f32, dif_neg h7]

theorem e_w1 : (Fr.V m c main_v27 : S8x256.Idx → EReal)
    = truncf .bf16 (pad S8x256 ![0, 0] ![1, 0] ![0, 0] (m ((c : Thread nD τ).loc main_arg3) : S7x256.Idx → EReal)
        (sitofp (F := Ideal) .f32 (constantI S_ 32 0#32)) pads_S7x256_S8x256_010_000 h_S_) bitsLt_bf16_f32 := by
  dsimp only [Fr.V, Fr.V0]
  simp only [Gen.hostOps0, Gen.hostOps0_1, Gen.hostOps0_2, List.flatten_cons, List.flatten_nil, List.append_nil, List.cons_append, List.nil_append]
  after_results
  rfl

theorem w1_read (w : S7x256.Idx → EReal) (k : Fin 8) (j : Fin 256) :
    (truncf .bf16 (pad S8x256 ![0, 0] ![1, 0] ![0, 0] w
        (sitofp (F := Ideal) .f32 (constantI S_ 32 0#32)) pads_S7x256_S8x256_010_000 h_S_) bitsLt_bf16_f32 : S8x256.Idx → EReal) (ix2 k j)
      = if h : k.val < 7 then w (ix2 (⟨k.val, h⟩ : Fin 7) j) else (0 : EReal) := by
  rw [truncf_apply]
  by_cases h : k.val < 7
  · rw [dif_pos h]
    exact pad_apply_of_inside _ _ _ w _ pads_S7x256_S8x256_010_000 h_S_ (ix2 k j) (ix2 (⟨k.val, h⟩ : Fin 7) j)
      (fun a => match a with
        | ⟨0, _⟩ => by show k.val = 0 + k.val * (0 + 1); omega
        | ⟨1, _⟩ => by show j.val = 0 + j.val * (0 + 1); omega)
  · rw [dif_neg h, pad_apply_of_not_inside _ _ _ w _ pads_S7x256_S8x256_010_000 h_S_ (ix2 k j) (0 : Fin 2)
      (by show ¬(0 ≤ k.val ∧ (k.val - 0) % (0 + 1) = 0 ∧ (k.val - 0) / (0 + 1) < 7); omega)]
    show (((0#32 : BitVec 32).toInt : ℝ) : EReal) = 0
    simp

theorem foldl_set_of_not_mem {ι β γ : Type} [DecidableEq γ] (g : ι → γ) (v : ι → β) (l : List ι) (x : γ → β) (i : γ)
    (hi : ∀ n ∈ l, g n ≠ i) :
    (l.foldl (fun r n => fun i' => if i' = g n then v n else r i') x) i = x i := by
  induction l generalizing x with
  | nil => rfl
  | cons a t ih =>
    rw [List.foldl_cons, ih _ (fun n hn => hi n (List.mem_cons_of_mem _ hn))]
    exact if_neg (fun h => hi a List.mem_cons_self h.symm)

theorem foldl_set_of_mem {ι β γ : Type} [DecidableEq γ] (g : ι → γ) (hg : Function.Injective g) (v : ι → β) (l : List ι)
    (hl : l.Nodup) (x : γ → β) (n0 : ι) (hn : n0 ∈ l) :
    (l.foldl (fun r n => fun i' => if i' = g n then v n else r i') x) (g n0) = v n0 := by
  induction l generalizing x with
  | nil => exact absurd hn List.not_mem_nil
  | cons a t ih =>
    rw [List.foldl_cons]
    rcases List.mem_cons.1 hn with rfl | ht
    · rw [foldl_set_of_not_mem g v t _ (g n0) (fun n hn' h => (List.nodup_cons.1 hl).1 (hg h ▸ hn'))]
      exact if_pos rfl
    · exact ih (List.nodup_cons.1 hl).2 _ ht

theorem scatter_set_read {s si u : Shape} {w : Nat} {α : Type} (d : ScatterDims s si u) (x : s.Idx → α) (idx : IVec si w)
    (upd : u.Idx → α) (g : u.Idx → s.Idx) (hg : Function.Injective g) (hres : ∀ j, d.resultIdx? j idx = some (g j)) :
    (∀ j, Host.scatter d (fun _ b => b) x idx upd (g j) = upd j)
      ∧ (∀ i, (∀ j, g j ≠ i) → Host.scatter d (fun _ b => b) x idx upd i = x i) := by
  constructor
  · intro j
    unfold Host.scatter
    simp only [hres]
    have h := foldl_set_of_mem (fun n : Fin u.numel => g (u.rowMajor.symm n))
      (fun a b hab => u.rowMajor.symm.injective (hg hab)) (fun n => upd (u.rowMajor.symm n))
      (List.finRange u.numel) (List.nodup_finRange _) x (u.rowMajor j) (List.mem_finRange _)
    simp only [Equiv.symm_apply_apply] at h
    exact h
  · intro i hi
    unfold Host.scatter
    simp only [hres]
    exact foldl_set_of_not_mem (fun n : Fin u.numel => g (u.rowMajor.symm n)) (fun n => upd (u.rowMajor.symm n))
      (List.finRange u.numel) x i (fun n _ => hi _)

theorem idx_zero (i : S2.Idx) :
    concatenate S2 0 [⟨S1, broadcastInDim S1 ![] bcast_S_S1 (constantI S_ 32 0#32)⟩,
        ⟨S1, broadcastInDim S1 ![] bcast_S_S1 (constantI S_ 32 0#32)⟩] concatenates_S1_S1_S2_d0 i = 0#32 := by
  obtain ⟨k, rfl⟩ : ∃ k : Fin 2, i = ix1 k := ⟨i 0, eq_ix1 i⟩
  match k with
  | ⟨0, _⟩ =>
    rw [concatenate_apply_piece (t := S2) (0 : Fin 1)
      [⟨S1, broadcastInDim S1 ![] bcast_S_S1 (constantI S_ 32 0#32)⟩, ⟨S1, broadcastInDim S1 ![] bcast_S_S1 (constantI S_ 32 0#32)⟩]
      concatenates_S1_S1_S2_d0 (ix1 (⟨0, by omega⟩ : Fin 2)) 0 (by show 0 < 2; omega) S1 _ rfl rfl 0 rfl (ix1 (0 : Fin 1))
      (fun b hb => absurd (Subsingleton.elim _ _) hb) rfl]
    rfl
  | ⟨1, _⟩ =>
    rw [concatenate_apply_piece (t := S2) (0 : Fin 1)
      [⟨S1, broadcastInDim S1 ![] bcast_S_S1 (constantI S_ 32 0#32)⟩, ⟨S1, broadcastInDim S1 ![] bcast_S_S1 (constantI S_ 32 0#32)⟩]
      concatenates_S1_S1_S2_d0 (ix1 (⟨1, by omega⟩ : Fin 2)) 1 (by show 1 < 2; omega) S1 _ rfl rfl 1 rfl (ix1 (0 : Fin 1))
      (fun b hb => absurd (Subsingleton.elim _ _) hb) rfl]
    rfl

abbrev rowOf (j : S13.Idx) : S128x1.Idx :=
  ix2 (⟨(j 0).val, by have : (j 0).val < 13 := (j 0).isLt; omega⟩ : Fin 128) (0 : Fin 1)

theorem landing (idx : IVec S2 32) (hidx : ∀ i, idx i = 0#32) (j : S13.Idx) :
    scatter_S128x1_S2_S13_0_1_01_0.resultIdx? j idx = some (rowOf j) := by
  have hs : ∀ a, scatter_S128x1_S2_S13_0_1_01_0.start j idx a = 0 := by
    intro a
    unfold ScatterDims.start
    split
    · rw [hidx]; rfl
    · rfl
  have hw0 : scatter_S128x1_S2_S13_0_1_01_0.window j (0 : Fin 2) = (j 0).val := rfl
  have hw1 : scatter_S128x1_S2_S13_0_1_01_0.window j (1 : Fin 2) = 0 := rfl
  have hj : (j 0).val < 13 := (j 0).isLt
  unfold ScatterDims.resultIdx?
  rw [dif_pos (fun a => match a with
    | ⟨0, _⟩ => by rw [hs]; show (0 : Int) ≤ 0 + ((scatter_S128x1_S2_S13_0_1_01_0.window j (0 : Fin 2) : Nat) : Int) ∧ (0 : Int) + ((scatter_S128x1_S2_S13_0_1_01_0.window j (0 : Fin 2) : Nat) : Int) < ((128 : Nat) : Int); rw [hw0]; omega
    | ⟨1, _⟩ => by rw [hs]; show (0 : Int) ≤ 0 + ((scatter_S128x1_S2_S13_0_1_01_0.window j (1 : Fin 2) : Nat) : Int) ∧ (0 : Int) + ((scatter_S128x1_S2_S13_0_1_01_0.window j (1 : Fin 2) : Nat) : Int) < ((1 : Nat) : Int); rw [hw1]; omega)]
  congr 1
  funext a
  apply Fin.ext
  match a with
  | ⟨0, _⟩ => show (scatter_S128x1_S2_S13_0_1_01_0.start j idx (0 : Fin 2) + ((scatter_S128x1_S2_S13_0_1_01_0.window j (0 : Fin 2) : Nat) : Int)).toNat = (j 0).val; rw [hs, hw0]; omega
  | ⟨1, _⟩ => show (scatter_S128x1_S2_S13_0_1_01_0.start j idx (1 : Fin 2) + ((scatter_S128x1_S2_S13_0_1_01_0.window j (1 : Fin 2) : Nat) : Int)).toNat = 0; rw [hs, hw1]; omega

theorem rowOf_injective : Function.Injective rowOf := by
  intro j j' h
  have h0 : (j 0).val = (j' 0).val := congrArg (fun i : S128x1.Idx => (i 0).val) h
  funext a
  have ha : a = 0 := Subsingleton.elim _ _
  subst ha
  exact Fin.ext h0

theorem validcol_read (b : S13.Idx → BitVec 1) (cl : Fin 128) :
    Host.scatter scatter_S128x1_S2_S13_0_1_01_0 (fun _ v => v)
        (broadcastInDim S128x1 ![] bcast_S_S128x1 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (uitofp (F := Ideal) .f32 b) (ix2 cl (0 : Fin 1))
      = if h : cl.val < 13 then (((b (ix1 (⟨cl.val, h⟩ : Fin 13))).toNat : ℝ) : EReal) else 0 := by
  have H := scatter_set_read scatter_S128x1_S2_S13_0_1_01_0
    (broadcastInDim S128x1 ![] bcast_S_S128x1 (constant (F := Ideal) S_ .f32 0x00000000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0)
    (uitofp (F := Ideal) .f32 b) rowOf rowOf_injective (landing _ idx_zero)
  by_cases h : cl.val < 13
  · rw [dif_pos h]
    have e : rowOf (ix1 (⟨cl.val, h⟩ : Fin 13)) = ix2 cl (0 : Fin 1) := rfl
    have h1 := H.1 (ix1 (⟨cl.val, h⟩ : Fin 13))
    rw [e] at h1
    rw [h1]
    rfl
  · rw [dif_neg h, H.2 (ix2 cl (0 : Fin 1)) (fun j hj => h (by
      have h0 : (j 0).val = cl.val := congrArg (fun i : S128x1.Idx => (i 0).val) hj
      have : (j 0).val < 13 := (j 0).isLt
      omega))]
    rw [broadcastInDim_apply _ bcast_S_S128x1 _ _ ix0 (fun a => a.elim0), constant_apply, Ideal.ofBits_zero_f32]

def validBits (y : S4x40000.Idx → BitVec 32) : S13.Idx → BitVec 1 :=
  cmpf .oge
    (sitofp (F := Ideal) .f32
      (Host.reduce IntOp.addi
        (extui 32
          (cmpi .eq
            (broadcastInDim S13x160000 ![0, 1] bcast_S13x1_S13x160000_0_1 (shapeCast S13x1 (iotaInDim S13 32 0) shapeCasts_S13_S13x1))
            (broadcastInDim S13x160000 ![0, 1] bcast_S1x160000_S13x160000_0_1
              (shapeCast S1x160000 (shapeCast S160000 y shapeCasts_S4x40000_S160000) shapeCasts_S160000_S1x160000)))
          natLt_1_32)
        (constantI S_ 32 0#32) reducesTo_S13x160000_S13_d1 h_S_))
    (broadcastInDim S13 ![] bcast_S_S13 (constant (F := Ideal) S_ .f32 0x43800000#32))

set_option maxHeartbeats 4000000 in

theorem e_validbits : (Fr.V m c main_v19 : S13.Idx → BitVec 1) = validBits (m ((c : Thread nD τ).loc main_arg2)) := by
  dsimp only [Fr.V, Fr.V0]
  simp only [Gen.hostOps0, Gen.hostOps0_1, Gen.hostOps0_2, List.flatten_cons, List.flatten_nil, List.append_nil, List.cons_append, List.nil_append]
  after_results
  rfl

set_option maxHeartbeats 4000000 in

theorem e_validcol : (Fr.V m c main_v25 : S128x1.Idx → EReal)
    = Host.scatter scatter_S128x1_S2_S13_0_1_01_0 (fun _ v => v)
        (broadcastInDim S128x1 ![] bcast_S_S128x1 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (uitofp (F := Ideal) .f32 (validBits (m ((c : Thread nD τ).loc main_arg2)))) := by
  dsimp only [Fr.V, Fr.V0]
  simp only [Gen.hostOps0, Gen.hostOps0_1, Gen.hostOps0_2, List.flatten_cons, List.flatten_nil, List.append_nil, List.cons_append, List.nil_append]
  after_results
  rfl

end EntryValues

open EntryValues

theorem V_combined (k : Fin 8) (p : Fin 160000) :
    (Fr.V m c main_v6 : S8x160000.Idx → EReal) (ix2 k p)
      = if h : k.val < 7 then Cert.Spec.inp (m ((c : Thread nD τ).loc main_arg0)) (m ((c : Thread nD τ).loc main_arg1)) p ⟨k.val, h⟩ else (0 : EReal) := by
  rw [e_combined]
  exact combined_read _ _ k p

theorem V_labels (p : Fin 160000) :
    (Fr.V m c main_v8 : S1x160000.Idx → BitVec 32) (ix2 (0 : Fin 1) p) = Cert.Spec.lab (m ((c : Thread nD τ).loc main_arg2)) p := by
  rw [e_labels, row_read, flat_read]
  rfl

theorem V_w1 (k : Fin 8) (j : Fin 256) :
    (Fr.V m c main_v27 : S8x256.Idx → EReal) (ix2 k j)
      = if h : k.val < 7 then (m ((c : Thread nD τ).loc main_arg3) : S7x256.Idx → EReal) (ix2 (⟨k.val, h⟩ : Fin 7) j) else (0 : EReal) := by
  rw [e_w1]
  exact w1_read _ k j

theorem V_w2 : (Fr.V m c main_v28 : S256x512.Idx → EReal) = m ((c : Thread nD τ).loc main_arg5) := by
  dsimp only [Fr.V, Fr.V0]
  simp only [Gen.hostOps0, Gen.hostOps0_1, Gen.hostOps0_2, List.flatten_cons, List.flatten_nil, List.append_nil, List.cons_append, List.nil_append]
  after_results
  rfl

theorem V_w3 : (Fr.V m c main_v29 : S512x256.Idx → EReal) = m ((c : Thread nD τ).loc main_arg7) := by
  dsimp only [Fr.V, Fr.V0]
  simp only [Gen.hostOps0, Gen.hostOps0_1, Gen.hostOps0_2, List.flatten_cons, List.flatten_nil, List.append_nil, List.cons_append, List.nil_append]
  after_results
  rfl

theorem V_w4 : (Fr.V m c main_v30 : S256x128.Idx → EReal) = m ((c : Thread nD τ).loc main_arg9) := by
  dsimp only [Fr.V, Fr.V0]
  simp only [Gen.hostOps0, Gen.hostOps0_1, Gen.hostOps0_2, List.flatten_cons, List.flatten_nil, List.append_nil, List.cons_append, List.nil_append]
  after_results
  rfl

theorem V_c1 (j : Fin 256) :
    (Fr.V m c main_v31 : S1x256.Idx → EReal) (ix2 (0 : Fin 1) j) = (m ((c : Thread nD τ).loc main_arg4) : S256.Idx → EReal) (ix1 j) := by
  rw [e_c1]; exact row_read _ _ j

theorem V_c2 (j : Fin 512) :
    (Fr.V m c main_v32 : S1x512.Idx → EReal) (ix2 (0 : Fin 1) j) = (m ((c : Thread nD τ).loc main_arg6) : S512.Idx → EReal) (ix1 j) := by
  rw [e_c2]; exact row_read _ _ j

theorem V_c3 (j : Fin 256) :
    (Fr.V m c main_v33 : S1x256.Idx → EReal) (ix2 (0 : Fin 1) j) = (m ((c : Thread nD τ).loc main_arg8) : S256.Idx → EReal) (ix1 j) := by
  rw [e_c3]; exact row_read _ _ j

theorem V_c4 (j : Fin 128) :
    (Fr.V m c main_v34 : S1x128.Idx → EReal) (ix2 (0 : Fin 1) j) = (m ((c : Thread nD τ).loc main_arg10) : S128.Idx → EReal) (ix1 j) := by
  rw [e_c4]; exact row_read _ _ j

theorem V_counts (cl : Fin 13) :
    (Fr.V m c main_v17 : S13.Idx → EReal) (ix1 cl) = Cert.Spec.cnt (m ((c : Thread nD τ).loc main_arg2)) cl := by
  exact counts_value m c cl

theorem V_validbit (cl : Fin 13) :
    (Fr.V m c main_v19 : S13.Idx → BitVec 1) (ix1 cl) = 1#1 ↔ Cert.Spec.valid (m ((c : Thread nD τ).loc main_arg2)) cl := by
  exact validbit_value m c cl

open Classical in

theorem V_validcol (cl : Fin 128) :
    (Fr.V m c main_v25 : S128x1.Idx → EReal) (ix2 cl (0 : Fin 1))
      = if h : cl.val < 13 then (if Cert.Spec.valid (m ((c : Thread nD τ).loc main_arg2)) ⟨cl.val, h⟩ then (1 : EReal) else 0) else 0 := by
  rw [e_validcol, validcol_read]
  by_cases h : cl.val < 13
  · rw [dif_pos h, dif_pos h]
    have hb := V_validbit m c ⟨cl.val, h⟩
    rw [e_validbits] at hb
    by_cases hv : Cert.Spec.valid (m ((c : Thread nD τ).loc main_arg2)) ⟨cl.val, h⟩
    · rw [if_pos hv, hb.2 hv]
      simp
    · rw [if_neg hv, eq_zero_of_ne_one (fun h1 => hv (hb.1 h1))]
      simp
  · rw [dif_neg h, dif_neg h]

end Cert.KernelIdeal.Val

end
-- ==== Proof.Val.Cp.lean ====
import proofs.«417753_j63831803953783_3_alg».proof.Proof.Fr.Pieces
import proofs.«417753_j63831803953783_3_alg».proof.Proof.Val.Blocks
import proofs.«417753_j63831803953783_3_alg».proof.Proof.Val.Pay
import proofs.«417753_j63831803953783_3_alg».proof.Proof.Val.EntryValues
import proofs.«417753_j63831803953783_3_alg».proof.Proof.Consts
import proofs.«417753_j63831803953783_3_alg».proof.Proof.SpecArrays
import Idealize.ShloMosaic.Lib.ValueIdx
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)

theorem cmp_one_half : Ideal.cmp .ogt (1 : EReal) (Ideal.ofBits .f32 0x3F000000#32) = 1#1 := by
  rw [Cert.Consts.ofBits_half]
  have h : (((1 : ℝ) / 2 : ℝ) : EReal) < 1 := by
    rw [← EReal.coe_one, EReal.coe_lt_coe_iff]; norm_num
  show BitVec.ofBool (decide (_ < _)) = 1#1
  rw [decide_eq_true h]
  rfl

theorem cmp_zero_half : ¬ Ideal.cmp .ogt (0 : EReal) (Ideal.ofBits .f32 0x3F000000#32) = 1#1 := by
  rw [Cert.Consts.ofBits_half]
  have h : ¬ (((1 : ℝ) / 2 : ℝ) : EReal) < 0 := by
    rw [← EReal.coe_zero, EReal.coe_lt_coe_iff]; norm_num
  show ¬ BitVec.ofBool (decide (_ < _)) = 1#1
  rw [decide_eq_false h]
  decide

open Classical in

theorem lblSum_eq (y : (⟨2, ![4, 40000]⟩ : Shape).Idx → BitVec 32) (p : Fin 160000)
    (b1 : Vec Ideal S1x3200 .i32) (b2 : Vec Ideal S128x1 .f32) (r : Fin 3200)
    (h1 : b1 (ix2 (0 : Fin 1) r) = Cert.Spec.lab y p)
    (h2 : ∀ cl : Fin 128, b2 (ix2 cl (0 : Fin 1))
      = if h : cl.val < 13 then (if Cert.Spec.valid y ⟨cl.val, h⟩ then (1 : EReal) else 0) else 0)
    (hy : (Cert.Spec.lab y p).toNat < 13) :
    (∑ c : Fin 128, (if b1 (ix2 (0 : Fin 1) r) = BitVec.ofNat 32 c.val then (1 : EReal) else 0)
        * (if Ideal.cmp .ogt (b2 (ix2 c (0 : Fin 1))) (Ideal.ofBits .f32 0x3F000000#32) = 1#1
            then (((c.val : ℕ) : ℝ) : EReal) else Cert.Spec.negOne))
      = Cert.Spec.lblCol y p := by
  have hc : ∀ c : Fin 128, (b1 (ix2 (0 : Fin 1) r) = BitVec.ofNat 32 c.val)
      ↔ c = (⟨(Cert.Spec.lab y p).toNat, by omega⟩ : Fin 128) := by
    intro c
    rw [h1]
    constructor
    · intro h
      apply Fin.ext
      have h' := congrArg BitVec.toNat h
      rw [BitVec.toNat_ofNat] at h'
      have hc := c.isLt
      show c.val = (Cert.Spec.lab y p).toNat
      omega
    · intro h
      subst h
      apply BitVec.eq_of_toNat_eq
      rw [BitVec.toNat_ofNat]
      exact (Nat.mod_eq_of_lt (Cert.Spec.lab y p).isLt).symm
  simp only [hc, ite_mul, one_mul, zero_mul]
  rw [Finset.sum_ite_eq' Finset.univ, if_pos (Finset.mem_univ _)]
  rw [h2]
  dsimp only
  rw [dif_pos hy]
  unfold Cert.Spec.lblCol
  rw [dif_pos hy]
  by_cases hv : Cert.Spec.valid y ⟨(Cert.Spec.lab y p).toNat, hy⟩
  · rw [if_pos hv, if_pos hv, if_pos cmp_one_half]
  · rw [if_neg hv, if_neg hv, if_neg cmp_zero_half]

open Classical in

theorem tile_out0
    (pos : (⟨3, ![4, 40000, 3]⟩ : Shape).Idx → EReal) (x : (⟨3, ![4, 4, 40000]⟩ : Shape).Idx → EReal)
    (y : (⟨2, ![4, 40000]⟩ : Shape).Idx → BitVec 32)
    (w1 : (⟨2, ![7, 256]⟩ : Shape).Idx → EReal) (c1 : (⟨1, ![256]⟩ : Shape).Idx → EReal)
    (c2 : (⟨1, ![512]⟩ : Shape).Idx → EReal) (c3 : (⟨1, ![256]⟩ : Shape).Idx → EReal)
    (c4 : (⟨1, ![128]⟩ : Shape).Idx → EReal)
    (b0 : Vec Ideal S8x3200 .bf16) (b1 : Vec Ideal S1x3200 .i32) (b2 : Vec Ideal S128x1 .f32)
    (b3 : Vec Ideal S8x256 .bf16) (b4 : Vec Ideal S1x256 .f32) (b5 : Vec Ideal S256x512 .bf16)
    (b6 : Vec Ideal S1x512 .f32) (b7 : Vec Ideal S512x256 .bf16) (b8 : Vec Ideal S1x256 .f32)
    (b9 : Vec Ideal S256x128 .bf16) (b10 : Vec Ideal S1x128 .f32)
    (r : Fin 3200) (j : Fin 129) (p : Fin 160000)
    (h0 : ∀ k : Fin 8, b0 (ix2 k r) = if h : k.val < 7 then Cert.Spec.inp pos x p ⟨k.val, h⟩ else (0 : EReal))
    (h1 : b1 (ix2 (0 : Fin 1) r) = Cert.Spec.lab y p)
    (h2 : ∀ cl : Fin 128, b2 (ix2 cl (0 : Fin 1))
      = if h : cl.val < 13 then (if Cert.Spec.valid y ⟨cl.val, h⟩ then (1 : EReal) else 0) else 0)
    (h3 : ∀ (k : Fin 8) (j : Fin 256), b3 (ix2 k j) = if h : k.val < 7 then w1 (ix2 (⟨k.val, h⟩ : Fin 7) j) else (0 : EReal))
    (h4 : ∀ j : Fin 256, b4 (ix2 (0 : Fin 1) j) = c1 (ix1 j))
    (h6 : ∀ j : Fin 512, b6 (ix2 (0 : Fin 1) j) = c2 (ix1 j))
    (h8 : ∀ j : Fin 256, b8 (ix2 (0 : Fin 1) j) = c3 (ix1 j))
    (h10 : ∀ j : Fin 128, b10 (ix2 (0 : Fin 1) j) = c4 (ix1 j))
    (hy : (Cert.Spec.lab y p).toNat < 13) :
    k0_pay6 (F := Ideal) (k0_pay3 b0 b3 b4 b5 b6 b7 b8) b9 b10 b1 b2 (ix2 r j)
      = Cert.Spec.out0 pos x y w1 c1 b5 c2 b7 c3 b9 c4 p j := by
  refine (cpTile_apply (k0_pay3 b0 b3 b4 b5 b6 b7 b8) b9 b10 b1 b2 r j).trans ?_
  unfold Cert.Spec.out0
  by_cases hj : j.val < 128
  · rw [dif_pos hj, dif_pos hj]
    refine (tileFeat_apply b0 b3 b4 b5 b6 b7 b8 b9 b10 w1 c1 c2 c3 c4 r ⟨j.val, hj⟩ ?_ ?_ h4 h6 h8 h10).trans ?_
    · intro k j'
      rw [h3]
      exact dif_pos k.isLt
    · intro j'
      rw [h0 7, dif_neg (by decide)]
      exact zero_mul _
    · have ha : (fun k : Fin 7 => b0 (ix2 (⟨k.val, by omega⟩ : Fin 8) r)) = Cert.Spec.inp pos x p :=
        funext fun k => (h0 _).trans (dif_pos k.isLt)
      unfold Cert.Spec.featn
      rw [ha]
  · rw [dif_neg hj, dif_neg hj]
    simp only [onehot_apply]
    exact lblSum_eq y p b1 b2 r h1 h2 hy

theorem mem_blk11 (t : Fin cfg0.N) (i : S160000x129.Idx) :
    i ∈ ((cfg0.win 11).blk t).view.set ↔ ∀ a : Fin 2, win0_11.index t a * S3200x129.size a ≤ (i a).val
      ∧ (i a).val < win0_11.index t a * S3200x129.size a + S3200x129.size a := by
  show i ∈ ((View.whole main_v35_0).slice (win0_11.rect t)).set ↔ _
  rw [View.set_slice_whole, Rect.mem_set_unit]
  exact Iff.rfl

theorem cover11 (i : S160000x129.Idx) :
    ∃ t : Fin cfg0.N, (cfg0.win 11).flush t = true ∧ i ∈ ((cfg0.win 11).blk t).view.set := by
  have hi0 : (i 0).val < 160000 := (i 0).isLt
  have hi1 : (i 1).val < 129 := (i 1).isLt
  have hN : cfg0.N = 50 := N_0
  have ht : (i 0).val / 3200 < cfg0.N := by rw [hN]; omega
  refine ⟨⟨(i 0).val / 3200, ht⟩, flush0_11 _, ?_⟩
  rw [mem_blk11]
  obtain ⟨-, -, -, -, e0, e1⟩ := idx_tile ⟨(i 0).val / 3200, ht⟩
  intro a
  match a with
  | ⟨0, _⟩ =>
    show win0_11.index ⟨(i 0).val / 3200, ht⟩ (0 : Fin 2) * 3200 ≤ (i 0).val
      ∧ (i 0).val < win0_11.index ⟨(i 0).val / 3200, ht⟩ (0 : Fin 2) * 3200 + 3200
    rw [e0]; dsimp only; omega
  | ⟨1, _⟩ =>
    show win0_11.index ⟨(i 0).val / 3200, ht⟩ (1 : Fin 2) * 129 ≤ (i 1).val
      ∧ (i 1).val < win0_11.index ⟨(i 0).val / 3200, ht⟩ (1 : Fin 2) * 129 + 129
    rw [e1]; omega

section Final

variable (m : (ℓ : Loc nD τ sig) → Buf (Elt Ideal) ℓ) (c : Dev nD)

theorem flushed11_eq (hy : ∀ q, (m ((c : Thread nD τ).loc main_arg2) q).toNat < 13) (t : Fin cfg0.N) :
    (dats m 0 c).flushed 11 t = ((cfg0.win 11).blk t).view.read (Elt Ideal) (Cert.Spec.res0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 11).cut (grid0.coords t) ((dats m 0 c).after 11 t) = _
  rw [after11_eq]
  have hN : t.val < 50 := lt_of_lt_of_eq t.isLt (show cfg0.N = 50 from N_0)
  obtain ⟨-, -, -, -, e0, e1⟩ := idx_tile t
  funext y
  obtain ⟨r, j, rfl⟩ : ∃ (r : Fin 3200) (j : Fin 129), y = ix2 r j := ⟨y 0, y 1, eq_ix2 y⟩
  have hp : 3200 * t.val + r.val < 160000 := by have := r.isLt; omega
  have he : ((cfg0.win 11).blk t).view.emb (ix2 r j) = (ix2 (⟨3200 * t.val + r.val, hp⟩ : Fin 160000) j : S160000x129.Idx) := by
    funext a
    apply Fin.ext
    match a with
    | ⟨0, _⟩ => show win0_11.index t (0 : Fin 2) * 3200 + 1 * r.val = 3200 * t.val + r.val; rw [e0]; omega
    | ⟨1, _⟩ => show win0_11.index t (1 : Fin 2) * 129 + 1 * j.val = j.val; rw [e1]; omega
  rw [View.read_apply, he]
  show k0_pay6 (F := Ideal) (k0_pay3 (iblk m c 0 t) (iblk m c 3 t) (iblk m c 4 t) (iblk m c 5 t) (iblk m c 6 t) (iblk m c 7 t) (iblk m c 8 t)) (iblk m c 9 t) (iblk m c 10 t) (iblk m c 1 t) (iblk m c 2 t) (ix2 r j)
    = Cert.Spec.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (⟨3200 * t.val + r.val, hp⟩ : Fin 160000) j
  have e5 : (iblk m c 5 t : Vec Ideal S256x512 .bf16) = (m ((c : Thread nD τ).loc main_arg5)) := (iblk5_eq m c t).trans (V_w2 m c)
  have e7 : (iblk m c 7 t : Vec Ideal S512x256 .bf16) = (m ((c : Thread nD τ).loc main_arg7)) := (iblk7_eq m c t).trans (V_w3 m c)
  have e9 : (iblk m c 9 t : Vec Ideal S256x128 .bf16) = (m ((c : Thread nD τ).loc main_arg9)) := (iblk9_eq m c t).trans (V_w4 m c)
  refine (tile_out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg8)) (m ((c : Thread nD τ).loc main_arg10))
    (iblk m c 0 t) (iblk m c 1 t) (iblk m c 2 t) (iblk m c 3 t) (iblk m c 4 t) (iblk m c 5 t) (iblk m c 6 t) (iblk m c 7 t) (iblk m c 8 t) (iblk m c 9 t) (iblk m c 10 t) r j (⟨3200 * t.val + r.val, hp⟩ : Fin 160000)
    (fun k => (iblk0_apply m c t k r _ rfl).trans (V_combined m c k _))
    ((iblk1_apply m c t r _ rfl).trans (V_labels m c _))
    (fun cl => (congrFun (iblk2_eq m c t) (ix2 cl (0 : Fin 1))).trans (V_validcol m c cl))
    (fun k j' => (congrFun (iblk3_eq m c t) (ix2 k j')).trans (V_w1 m c k j'))
    (fun j' => (congrFun (iblk4_eq m c t) (ix2 (0 : Fin 1) j')).trans (V_c1 m c j'))
    (fun j' => (congrFun (iblk6_eq m c t) (ix2 (0 : Fin 1) j')).trans (V_c2 m c j'))
    (fun j' => (congrFun (iblk8_eq m c t) (ix2 (0 : Fin 1) j')).trans (V_c3 m c j'))
    (fun j' => (congrFun (iblk10_eq m c t) (ix2 (0 : Fin 1) j')).trans (V_c4 m c j'))
    (hy _)).trans ?_
  rw [e5, e7, e9]

theorem final_cp (hy : ∀ q, (m ((c : Thread nD τ).loc main_arg2) q).toNat < 13) :
    (dats m 0 c).arrAt 11 cfg0.N = Cert.Spec.res0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 (Cert.Spec.res0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed11_eq m c hy t) cover11

end Final

end Cert.KernelIdeal.Val

end
-- ==== Proof.Val.SumsAlg.lean ====
import proofs.«417753_j63831803953783_3_alg».proof.Proof.Spec
import Mathlib.Algebra.BigOperators.Fin
import Mathlib.Algebra.BigOperators.Intervals
import Mathlib.Data.Fintype.BigOperators
import Mathlib.Logic.Equiv.Fin.Basic

noncomputable section

namespace Cert.KernelIdeal.Val

def tpt (t : Fin 50) (r : Fin 3200) : Fin 160000 :=
  ⟨3200 * t.val + r.val, by have := t.isLt; have := r.isLt; omega⟩

theorem tpt_val (t : Fin 50) (r : Fin 3200) : (tpt t r).val = 3200 * t.val + r.val := rfl

theorem sum_points_eq_tiles {M : Type} [AddCommMonoid M] (f : Fin 160000 → M) :
    ∑ p : Fin 160000, f p = ∑ t : Fin 50, ∑ r : Fin 3200, f (tpt t r) := by
  rw [← Fintype.sum_prod_type' (fun t r => f (tpt t r))]
  exact (Fintype.sum_equiv (finProdFinEquiv.trans (finCongr (by norm_num : 50 * 3200 = 160000)))
    (fun x : Fin 50 × Fin 3200 => f (tpt x.1 x.2)) f
    (fun x => congrArg f (Fin.ext (Nat.add_comm _ _)))).symm

def runSum (T : ℕ → EReal) : ℕ → EReal
  | 0 => 0 + T 0
  | n + 1 => if (n + 1) % 25 = 0 then 0 + T (n + 1) else runSum T n + T (n + 1)

theorem runSum_eq (T : ℕ → EReal) (n : ℕ) : runSum T n = ∑ i ∈ Finset.Icc (n - n % 25) n, T i := by
  induction n with
  | zero => simp [runSum]
  | succ n ih =>
    rw [runSum]
    by_cases h : (n + 1) % 25 = 0
    · rw [if_pos h, h, Nat.sub_zero, Finset.Icc_self, Finset.sum_singleton, zero_add]
    · rw [if_neg h, ih, Finset.sum_Icc_succ_top (by omega)]
      have e : n + 1 - (n + 1) % 25 = n - n % 25 := by omega
      rw [e]

def tileSum (P : Fin 160000 → Prop) [DecidablePred P] (g : Fin 160000 → EReal) (t : Fin 50) : EReal :=
  ∑ r : Fin 3200, (if P (tpt t r) then (1 : EReal) else 0) * g (tpt t r)

def tileSumN (P : Fin 160000 → Prop) [DecidablePred P] (g : Fin 160000 → EReal) (n : ℕ) : EReal :=
  if h : n < 50 then tileSum P g ⟨n, h⟩ else 0

theorem tileSumN_val (P : Fin 160000 → Prop) [DecidablePred P] (g : Fin 160000 → EReal) (t : Fin 50) :
    tileSumN P g t.val = tileSum P g t := by
  rw [tileSumN, dif_pos t.isLt]

theorem core_sum (P : Fin 160000 → Prop) [DecidablePred P] (g : Fin 160000 → EReal) (k : Fin 2) :
    ∑ i ∈ Finset.Icc (25 * k.val) (25 * k.val + 24), tileSumN P g i
      = ∑ p ∈ Finset.univ.filter (fun p : Fin 160000 => p.val / 80000 = k.val ∧ P p), g p := by
  rw [Finset.sum_filter, sum_points_eq_tiles]
  have hT : ∀ t : Fin 50, (∑ r : Fin 3200, if ((tpt t r).val / 80000 = k.val ∧ P (tpt t r)) then g (tpt t r) else 0)
      = if t.val / 25 = k.val then tileSumN P g t.val else 0 := by
    intro t
    have hdiv : ∀ r : Fin 3200, (tpt t r).val / 80000 = t.val / 25 := fun r => by
      rw [tpt_val]; have := r.isLt; omega
    by_cases hk : t.val / 25 = k.val
    · rw [if_pos hk, tileSumN_val]
      unfold tileSum
      refine Finset.sum_congr rfl fun r _ => ?_
      rw [hdiv r]
      by_cases hp : P (tpt t r)
      · rw [if_pos ⟨hk, hp⟩, if_pos hp, one_mul]
      · rw [if_neg (fun h => hp h.2), if_neg hp, zero_mul]
    · rw [if_neg hk]
      refine Finset.sum_eq_zero fun r _ => ?_
      rw [hdiv r, if_neg (fun h => hk h.1)]
  rw [Finset.sum_congr rfl (fun t _ => hT t),
    Fin.sum_univ_eq_sum_range (fun i => if i / 25 = k.val then tileSumN P g i else 0) 50, ← Finset.sum_filter]
  refine Finset.sum_congr ?_ (fun _ _ => rfl)
  ext i
  simp only [Finset.mem_Icc, Finset.mem_filter, Finset.mem_range]
  have := k.isLt
  omega

end Cert.KernelIdeal.Val

end
-- ==== Proof.Val.SumsBlocks.lean ====
import proofs.«417753_j63831803953783_3_alg».proof.Proof.Fr.Entry
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

theorem sums_idx_tiled : ∀ t : Fin cfg0.N,
    win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

theorem sums_blk0_apply (c : Dev nD) (t : Fin cfg0.N) (k : Fin 8) (r : Fin 3200) (p : Fin 160000)
    (hp : p.val = 3200 * t.val + r.val) :
    (iblk m c 0 t : Vec F S8x3200 .bf16) (ix2 k r) = (V m c main_v6 : Vec F S8x160000 .bf16) (ix2 k p) := by
  unfold iblk
  rw [View.read_apply]
  show V m c main_v6 (((cfg0.win 0).blk t).view.emb (ix2 k r)) = V m c main_v6 (ix2 k p)
  refine congrArg _ ?_
  funext a; apply Fin.ext
  obtain ⟨e0, e1, -, -⟩ := sums_idx_tiled t
  match a with
  | ⟨0, _⟩ => show win0_0.index t (0 : Fin 2) * 8 + 1 * k.val = k.val; rw [e0]; omega
  | ⟨1, _⟩ => show win0_0.index t (1 : Fin 2) * 3200 + 1 * r.val = p.val; rw [e1, hp]; omega

theorem sums_blk1_apply (c : Dev nD) (t : Fin cfg0.N) (r : Fin 3200) (p : Fin 160000)
    (hp : p.val = 3200 * t.val + r.val) :
    (iblk m c 1 t : Vec F S1x3200 .i32) (ix2 (0 : Fin 1) r) = (V m c main_v8 : Vec F S1x160000 .i32) (ix2 (0 : Fin 1) p) := by
  unfold iblk
  rw [View.read_apply]
  show V m c main_v8 (((cfg0.win 1).blk t).view.emb (ix2 (0 : Fin 1) r)) = V m c main_v8 (ix2 (0 : Fin 1) p)
  refine congrArg _ ?_
  funext a; apply Fin.ext
  obtain ⟨-, -, e0, e1⟩ := sums_idx_tiled t
  match a with
  | ⟨0, _⟩ => show win0_1.index t (0 : Fin 2) * 1 + 1 * 0 = 0; rw [e0]
  | ⟨1, _⟩ => show win0_1.index t (1 : Fin 2) * 3200 + 1 * r.val = p.val; rw [e1, hp]; omega

theorem sums_idx3 : ∀ t : Fin cfg0.N, win0_3.index t (0 : Fin 2) = 0 ∧ win0_3.index t (1 : Fin 2) = 0 :=
  (by decide +kernel : ∀ t : Fin grid0.N, _)

theorem sums_blk3 (c : Dev nD) (t : Fin cfg0.N) :
    (iblk m c 3 t : Vec F S8x256 .bf16) = (V m c main_v27 : Vec F S8x256 .bf16) := by
  funext j
  unfold iblk
  rw [View.read_apply]
  show V m c main_v27 (((cfg0.win 3).blk t).view.emb j) = V m c main_v27 j
  refine congrArg _ ?_
  funext a; apply Fin.ext
  obtain ⟨e0, e1⟩ := sums_idx3 t
  match a with
  | ⟨0, _⟩ => show win0_3.index t (0 : Fin 2) * 8 + 1 * (j 0).val = (j 0).val; rw [e0]; omega
  | ⟨1, _⟩ => show win0_3.index t (1 : Fin 2) * 256 + 1 * (j 1).val = (j 1).val; rw [e1]; omega

theorem sums_idx4 : ∀ t : Fin cfg0.N, win0_4.index t (0 : Fin 2) = 0 ∧ win0_4.index t (1 : Fin 2) = 0 :=
  (by decide +kernel : ∀ t : Fin grid0.N, _)

theorem sums_blk4 (c : Dev nD) (t : Fin cfg0.N) :
    (iblk m c 4 t : Vec F S1x256 .f32) = (V m c main_v31 : Vec F S1x256 .f32) := by
  funext j
  unfold iblk
  rw [View.read_apply]
  show V m c main_v31 (((cfg0.win 4).blk t).view.emb j) = V m c main_v31 j
  refine congrArg _ ?_
  funext a; apply Fin.ext
  obtain ⟨e0, e1⟩ := sums_idx4 t
  match a with
  | ⟨0, _⟩ => show win0_4.index t (0 : Fin 2) * 1 + 1 * (j 0).val = (j 0).val; rw [e0]; omega
  | ⟨1, _⟩ => show win0_4.index t (1 : Fin 2) * 256 + 1 * (j 1).val = (j 1).val; rw [e1]; omega

theorem sums_idx5 : ∀ t : Fin cfg0.N, win0_5.index t (0 : Fin 2) = 0 ∧ win0_5.index t (1 : Fin 2) = 0 :=
  (by decide +kernel : ∀ t : Fin grid0.N, _)

theorem sums_blk5 (c : Dev nD) (t : Fin cfg0.N) :
    (iblk m c 5 t : Vec F S256x512 .bf16) = (V m c main_v28 : Vec F S256x512 .bf16) := by
  funext j
  unfold iblk
  rw [View.read_apply]
  show V m c main_v28 (((cfg0.win 5).blk t).view.emb j) = V m c main_v28 j
  refine congrArg _ ?_
  funext a; apply Fin.ext
  obtain ⟨e0, e1⟩ := sums_idx5 t
  match a with
  | ⟨0, _⟩ => show win0_5.index t (0 : Fin 2) * 256 + 1 * (j 0).val = (j 0).val; rw [e0]; omega
  | ⟨1, _⟩ => show win0_5.index t (1 : Fin 2) * 512 + 1 * (j 1).val = (j 1).val; rw [e1]; omega

theorem sums_idx6 : ∀ t : Fin cfg0.N, win0_6.index t (0 : Fin 2) = 0 ∧ win0_6.index t (1 : Fin 2) = 0 :=
  (by decide +kernel : ∀ t : Fin grid0.N, _)

theorem sums_blk6 (c : Dev nD) (t : Fin cfg0.N) :
    (iblk m c 6 t : Vec F S1x512 .f32) = (V m c main_v32 : Vec F S1x512 .f32) := by
  funext j
  unfold iblk
  rw [View.read_apply]
  show V m c main_v32 (((cfg0.win 6).blk t).view.emb j) = V m c main_v32 j
  refine congrArg _ ?_
  funext a; apply Fin.ext
  obtain ⟨e0, e1⟩ := sums_idx6 t
  match a with
  | ⟨0, _⟩ => show win0_6.index t (0 : Fin 2) * 1 + 1 * (j 0).val = (j 0).val; rw [e0]; omega
  | ⟨1, _⟩ => show win0_6.index t (1 : Fin 2) * 512 + 1 * (j 1).val = (j 1).val; rw [e1]; omega

theorem sums_idx7 : ∀ t : Fin cfg0.N, win0_7.index t (0 : Fin 2) = 0 ∧ win0_7.index t (1 : Fin 2) = 0 :=
  (by decide +kernel : ∀ t : Fin grid0.N, _)

theorem sums_blk7 (c : Dev nD) (t : Fin cfg0.N) :
    (iblk m c 7 t : Vec F S512x256 .bf16) = (V m c main_v29 : Vec F S512x256 .bf16) := by
  funext j
  unfold iblk
  rw [View.read_apply]
  show V m c main_v29 (((cfg0.win 7).blk t).view.emb j) = V m c main_v29 j
  refine congrArg _ ?_
  funext a; apply Fin.ext
  obtain ⟨e0, e1⟩ := sums_idx7 t
  match a with
  | ⟨0, _⟩ => show win0_7.index t (0 : Fin 2) * 512 + 1 * (j 0).val = (j 0).val; rw [e0]; omega
  | ⟨1, _⟩ => show win0_7.index t (1 : Fin 2) * 256 + 1 * (j 1).val = (j 1).val; rw [e1]; omega

theorem sums_idx8 : ∀ t : Fin cfg0.N, win0_8.index t (0 : Fin 2) = 0 ∧ win0_8.index t (1 : Fin 2) = 0 :=
  (by decide +kernel : ∀ t : Fin grid0.N, _)

theorem sums_blk8 (c : Dev nD) (t : Fin cfg0.N) :
    (iblk m c 8 t : Vec F S1x256 .f32) = (V m c main_v33 : Vec F S1x256 .f32) := by
  funext j
  unfold iblk
  rw [View.read_apply]
  show V m c main_v33 (((cfg0.win 8).blk t).view.emb j) = V m c main_v33 j
  refine congrArg _ ?_
  funext a; apply Fin.ext
  obtain ⟨e0, e1⟩ := sums_idx8 t
  match a with
  | ⟨0, _⟩ => show win0_8.index t (0 : Fin 2) * 1 + 1 * (j 0).val = (j 0).val; rw [e0]; omega
  | ⟨1, _⟩ => show win0_8.index t (1 : Fin 2) * 256 + 1 * (j 1).val = (j 1).val; rw [e1]; omega

theorem sums_idx9 : ∀ t : Fin cfg0.N, win0_9.index t (0 : Fin 2) = 0 ∧ win0_9.index t (1 : Fin 2) = 0 :=
  (by decide +kernel : ∀ t : Fin grid0.N, _)

theorem sums_blk9 (c : Dev nD) (t : Fin cfg0.N) :
    (iblk m c 9 t : Vec F S256x128 .bf16) = (V m c main_v30 : Vec F S256x128 .bf16) := by
  funext j
  unfold iblk
  rw [View.read_apply]
  show V m c main_v30 (((cfg0.win 9).blk t).view.emb j) = V m c main_v30 j
  refine congrArg _ ?_
  funext a; apply Fin.ext
  obtain ⟨e0, e1⟩ := sums_idx9 t
  match a with
  | ⟨0, _⟩ => show win0_9.index t (0 : Fin 2) * 256 + 1 * (j 0).val = (j 0).val; rw [e0]; omega
  | ⟨1, _⟩ => show win0_9.index t (1 : Fin 2) * 128 + 1 * (j 1).val = (j 1).val; rw [e1]; omega

theorem sums_idx10 : ∀ t : Fin cfg0.N, win0_10.index t (0 : Fin 2) = 0 ∧ win0_10.index t (1 : Fin 2) = 0 :=
  (by decide +kernel : ∀ t : Fin grid0.N, _)

theorem sums_blk10 (c : Dev nD) (t : Fin cfg0.N) :
    (iblk m c 10 t : Vec F S1x128 .f32) = (V m c main_v34 : Vec F S1x128 .f32) := by
  funext j
  unfold iblk
  rw [View.read_apply]
  show V m c main_v34 (((cfg0.win 10).blk t).view.emb j) = V m c main_v34 j
  refine congrArg _ ?_
  funext a; apply Fin.ext
  obtain ⟨e0, e1⟩ := sums_idx10 t
  match a with
  | ⟨0, _⟩ => show win0_10.index t (0 : Fin 2) * 1 + 1 * (j 0).val = (j 0).val; rw [e0]; omega
  | ⟨1, _⟩ => show win0_10.index t (1 : Fin 2) * 128 + 1 * (j 1).val = (j 1).val; rw [e1]; omega

end Cert.KernelIdeal.Val

end
-- ==== Proof.Val.SumsTile.lean ====
import proofs.«417753_j63831803953783_3_alg».proof.Proof.Val.Pay
import proofs.«417753_j63831803953783_3_alg».proof.Proof.Val.EntryValues
import proofs.«417753_j63831803953783_3_alg».proof.Proof.Val.SumsAlg
import proofs.«417753_j63831803953783_3_alg».proof.Proof.Val.SumsBlocks

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ) (c : Dev nD)

abbrev tileOf (t : Fin cfg0.N) : Fin 50 := ⟨t.val, lt_of_lt_of_eq t.isLt N_0⟩

abbrev sb0 (t : Fin cfg0.N) : Vec Ideal S8x3200 .bf16 := iblk m c 0 t
abbrev sb1 (t : Fin cfg0.N) : Vec Ideal S1x3200 .i32 := iblk m c 1 t
abbrev sb3 (t : Fin cfg0.N) : Vec Ideal S8x256 .bf16 := iblk m c 3 t
abbrev sb4 (t : Fin cfg0.N) : Vec Ideal S1x256 .f32 := iblk m c 4 t
abbrev sb5 (t : Fin cfg0.N) : Vec Ideal S256x512 .bf16 := iblk m c 5 t
abbrev sb6 (t : Fin cfg0.N) : Vec Ideal S1x512 .f32 := iblk m c 6 t
abbrev sb7 (t : Fin cfg0.N) : Vec Ideal S512x256 .bf16 := iblk m c 7 t
abbrev sb8 (t : Fin cfg0.N) : Vec Ideal S1x256 .f32 := iblk m c 8 t
abbrev sb9 (t : Fin cfg0.N) : Vec Ideal S256x128 .bf16 := iblk m c 9 t
abbrev sb10 (t : Fin cfg0.N) : Vec Ideal S1x128 .f32 := iblk m c 10 t

abbrev clsP (cl : Fin 128) : Fin 160000 → Prop :=
  fun p => Cert.Spec.lab (m ((c : Thread nD τ).loc main_arg2)) p = BitVec.ofNat 32 cl.val

abbrev featG (d : Fin 128) : Fin 160000 → EReal :=
  fun p => Cert.Spec.featn (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) p d

theorem sums_tile (t : Fin cfg0.N) (cl d : Fin 128) :
    k0_pay7 (F := Ideal) (k0_pay3 (sb0 m c t) (sb3 m c t) (sb4 m c t) (sb5 m c t) (sb6 m c t) (sb7 m c t) (sb8 m c t))
        (sb9 m c t) (sb10 m c t) (sb1 m c t) (ix2 cl d)
      = tileSum (clsP m c cl) (featG m c d) (tileOf t) := by
  refine (tileSums_apply (k0_pay3 (sb0 m c t) (sb3 m c t) (sb4 m c t) (sb5 m c t) (sb6 m c t) (sb7 m c t) (sb8 m c t))
    (sb9 m c t) (sb10 m c t) (sb1 m c t) cl d).trans ?_
  unfold tileSum
  refine Finset.sum_congr rfl fun r _ => ?_
  have hp : (tpt (tileOf t) r).val = 3200 * t.val + r.val := rfl

  have h1 : k0_pay5 (F := Ideal) (sb1 m c t) (ix2 cl r) = if clsP m c cl (tpt (tileOf t) r) then (1 : EReal) else 0 := by
    refine (onehot_apply (sb1 m c t) cl r).trans ?_
    rw [show (sb1 m c t) (ix2 (0 : Fin 1) r) = Cert.Spec.lab (m ((c : Thread nD τ).loc main_arg2)) (tpt (tileOf t) r) from
      (sums_blk1_apply m c t r (tpt (tileOf t) r) hp).trans (V_labels m c (tpt (tileOf t) r))]

  have hb3 : ∀ (k : Fin 8) (j : Fin 256), (sb3 m c t) (ix2 k j)
      = if h : k.val < 7 then ((m ((c : Thread nD τ).loc main_arg3)) : S7x256.Idx → EReal) (ix2 (⟨k.val, h⟩ : Fin 7) j) else (0 : EReal) :=
    fun k j => (congrFun (sums_blk3 m c t) (ix2 k j)).trans (V_w1 m c k j)
  have hw1 : ∀ (k : Fin 7) (j : Fin 256), (sb3 m c t) (ix2 (⟨k.val, by omega⟩ : Fin 8) j) = (m ((c : Thread nD τ).loc main_arg3)) (ix2 k j) :=
    fun k j => (hb3 ⟨k.val, by omega⟩ j).trans (dif_pos k.isLt)
  have hpad : ∀ j : Fin 256, (sb0 m c t) (ix2 (7 : Fin 8) r) * (sb3 m c t) (ix2 (7 : Fin 8) j) = 0 := fun j => by
    rw [(hb3 7 j).trans (dif_neg (by decide))]
    exact mul_zero _
  have hc1 : ∀ j : Fin 256, (sb4 m c t) (ix2 (0 : Fin 1) j) = (m ((c : Thread nD τ).loc main_arg4)) (ix1 j) :=
    fun j => (congrFun (sums_blk4 m c t) (ix2 (0 : Fin 1) j)).trans (V_c1 m c j)
  have hc2 : ∀ j : Fin 512, (sb6 m c t) (ix2 (0 : Fin 1) j) = (m ((c : Thread nD τ).loc main_arg6)) (ix1 j) :=
    fun j => (congrFun (sums_blk6 m c t) (ix2 (0 : Fin 1) j)).trans (V_c2 m c j)
  have hc3 : ∀ j : Fin 256, (sb8 m c t) (ix2 (0 : Fin 1) j) = (m ((c : Thread nD τ).loc main_arg8)) (ix1 j) :=
    fun j => (congrFun (sums_blk8 m c t) (ix2 (0 : Fin 1) j)).trans (V_c3 m c j)
  have hc4 : ∀ j : Fin 128, (sb10 m c t) (ix2 (0 : Fin 1) j) = (m ((c : Thread nD τ).loc main_arg10)) (ix1 j) :=
    fun j => (congrFun (sums_blk10 m c t) (ix2 (0 : Fin 1) j)).trans (V_c4 m c j)
  have hb5 : sb5 m c t = (m ((c : Thread nD τ).loc main_arg5)) := (sums_blk5 m c t).trans (V_w2 m c)
  have hb7 : sb7 m c t = (m ((c : Thread nD τ).loc main_arg7)) := (sums_blk7 m c t).trans (V_w3 m c)
  have hb9 : sb9 m c t = (m ((c : Thread nD τ).loc main_arg9)) := (sums_blk9 m c t).trans (V_w4 m c)
  have hinp : (fun k : Fin 7 => (sb0 m c t) (ix2 (⟨k.val, by omega⟩ : Fin 8) r))
      = Cert.Spec.inp (m ((c : Thread nD τ).loc main_arg0)) (m ((c : Thread nD τ).loc main_arg1)) (tpt (tileOf t) r) :=
    funext fun k => (sums_blk0_apply m c t ⟨k.val, by omega⟩ r (tpt (tileOf t) r) hp).trans
      ((V_combined m c ⟨k.val, by omega⟩ (tpt (tileOf t) r)).trans (dif_pos k.isLt))
  have h2 : k0_pay4 (F := Ideal) (k0_pay3 (sb0 m c t) (sb3 m c t) (sb4 m c t) (sb5 m c t) (sb6 m c t) (sb7 m c t) (sb8 m c t))
      (sb9 m c t) (sb10 m c t) (ix2 r d) = featG m c d (tpt (tileOf t) r) := by
    refine (tileFeat_apply (sb0 m c t) (sb3 m c t) (sb4 m c t) (sb5 m c t) (sb6 m c t) (sb7 m c t) (sb8 m c t)
      (sb9 m c t) (sb10 m c t) (m ((c : Thread nD τ).loc main_arg3)) (m ((c : Thread nD τ).loc main_arg4)) (m ((c : Thread nD τ).loc main_arg6)) (m ((c : Thread nD τ).loc main_arg8)) (m ((c : Thread nD τ).loc main_arg10)) r d hw1 hpad hc1 hc2 hc3 hc4).trans ?_
    rw [hb5, hb7, hb9]
    exact congrArg (fun a => Cert.Spec.rfeatn (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) a d) hinp
  rw [h1, h2]

end Cert.KernelIdeal.Val

end
-- ==== Proof.Val.Sums.lean ====
import proofs.«417753_j63831803953783_3_alg».proof.Proof.Fr.Frame
import proofs.«417753_j63831803953783_3_alg».proof.Proof.Val.SumsTile
import Idealize.ShloMosaic.Lib.Pipeline.Value
import Idealize.ShloMosaic.Lib.Tactic

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat)

section Pieces

variable {F : FTy → Type} [FloatOps F]

theorem sums_hz3 : (![0, 0, 0] : Fin 3 → Nat) = fun _ => 0 := funext fun a => by fin_cases a <;> rfl
theorem sums_hz2 : (![0, 0] : Fin 2 → Nat) = fun _ => 0 := funext fun a => by fin_cases a <;> rfl

theorem sums_out_A (c : Dev nD) (i : grid0.Coords) (arg2 : Memref sig .tc .vmem S8x3200 .bf16) (harg2 : arg2.IsWhole) (arg3 : Memref sig .tc .vmem S1x3200 .i32) (harg3 : arg3.IsWhole) (arg4 : Memref sig .tc .vmem S128x1 .f32) (harg4 : arg4.IsWhole) (arg5 : Memref sig .tc .vmem S8x256 .bf16) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S256x128 .bf16) (harg11 : arg11.IsWhole) (arg12 : Memref sig .tc .vmem S1x128 .f32) (harg12 : arg12.IsWhole) (arg13 : Memref sig .tc .vmem S3200x129 .f32) (harg13 : arg13.IsWhole) (arg14 : Memref sig .tc .vmem S1x128x128 .f32) (harg14 : arg14.IsWhole) (hc0 : cond0_0 i)
    (x0 : Vec F S8x3200 .bf16) (x1 : Vec F S1x3200 .i32) (x2 : Vec F S128x1 .f32) (x3 : Vec F S8x256 .bf16) (x4 : Vec F S1x256 .f32) (x5 : Vec F S256x512 .bf16) (x6 : Vec F S1x512 .f32) (x7 : Vec F S512x256 .bf16) (x8 : Vec F S1x256 .f32) (x9 : Vec F S256x128 .bf16) (x10 : Vec F S1x128 .f32) :
    out0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
      = k0_pay1 (k0_pay7 (k0_pay3 x0 x3 x4 x5 x6 x7 x8) x9 x10 x1) k0_pay2 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_cons_unit_zero (S := S1x128x128) sums_hz3, View.readCov_unit_zero (S := S1x128x128) _ sums_hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S8x3200) sums_hz2, View.ld_unit_zero (S := S1x3200) sums_hz2, View.ld_unit_zero (S := S128x1) sums_hz2, View.ld_unit_zero (S := S8x256) sums_hz2, View.ld_unit_zero (S := S1x256) sums_hz2, View.ld_unit_zero (S := S256x512) sums_hz2, View.ld_unit_zero (S := S1x512) sums_hz2, View.ld_unit_zero (S := S512x256) sums_hz2, View.ld_unit_zero (S := S256x128) sums_hz2, View.ld_unit_zero (S := S1x128) sums_hz2, View.ld_unit_zero (S := S3200x129) sums_hz2]

theorem sums_out_B (c : Dev nD) (i : grid0.Coords) (arg2 : Memref sig .tc .vmem S8x3200 .bf16) (harg2 : arg2.IsWhole) (arg3 : Memref sig .tc .vmem S1x3200 .i32) (harg3 : arg3.IsWhole) (arg4 : Memref sig .tc .vmem S128x1 .f32) (harg4 : arg4.IsWhole) (arg5 : Memref sig .tc .vmem S8x256 .bf16) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S256x128 .bf16) (harg11 : arg11.IsWhole) (arg12 : Memref sig .tc .vmem S1x128 .f32) (harg12 : arg12.IsWhole) (arg13 : Memref sig .tc .vmem S3200x129 .f32) (harg13 : arg13.IsWhole) (arg14 : Memref sig .tc .vmem S1x128x128 .f32) (harg14 : arg14.IsWhole) (hc0 : ¬cond0_0 i)
    (x0 : Vec F S8x3200 .bf16) (x1 : Vec F S1x3200 .i32) (x2 : Vec F S128x1 .f32) (x3 : Vec F S8x256 .bf16) (x4 : Vec F S1x256 .f32) (x5 : Vec F S256x512 .bf16) (x6 : Vec F S1x512 .f32) (x7 : Vec F S512x256 .bf16) (x8 : Vec F S1x256 .f32) (x9 : Vec F S256x128 .bf16) (x10 : Vec F S1x128 .f32) (xo12 : Vec F S1x128x128 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12
      = k0_pay1 (k0_pay7 (k0_pay3 x0 x3 x4 x5 x6 x7 x8) x9 x10 x1) xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12)]
  unfold kernelRun0_B
  dsimp only
  sl_unfold_words
  rw [View.canon_unit_zero sums_hz3]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, View.ld_unit_zero (S := S8x3200) sums_hz2, View.ld_unit_zero (S := S1x3200) sums_hz2, View.ld_unit_zero (S := S128x1) sums_hz2, View.ld_unit_zero (S := S8x256) sums_hz2, View.ld_unit_zero (S := S1x256) sums_hz2, View.ld_unit_zero (S := S256x512) sums_hz2, View.ld_unit_zero (S := S1x512) sums_hz2, View.ld_unit_zero (S := S512x256) sums_hz2, View.ld_unit_zero (S := S256x128) sums_hz2, View.ld_unit_zero (S := S1x128) sums_hz2, View.ld_unit_zero (S := S3200x129) sums_hz2, View.ld_unit_zero (S := S1x128x128) sums_hz3]

end Pieces

variable (m : (ℓ : Loc nD τ sig) → Buf (Elt Ideal) ℓ) (c : Dev nD)

theorem sums_step_A (t : Fin cfg0.N) (h0 : t.val % 25 = 0) (cl d : Fin 128) :
    ((outsAt0 m c t.val t.isLt).2 : Vec Ideal S1x128x128 .f32) (ix3 (0 : Fin 1) cl d)
      = 0 + tileSum (clsP m c cl) (featG m c d) (tileOf t) := by
  rw [outsAt0_A m c t h0]
  dsimp only
  refine (congrFun (sums_out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 (0 : Fin 1) cl d)).trans ?_
  refine (acc_apply _ _ cl d).trans ?_
  rw [zero_apply cl d]
  exact congrArg (fun a => (0 : EReal) + a) (sums_tile m c t cl d)

theorem sums_step_B (t : Fin cfg0.N) (h0 : ¬t.val % 25 = 0) (cl d : Fin 128) :
    ((outsAt0 m c t.val t.isLt).2 : Vec Ideal S1x128x128 .f32) (ix3 (0 : Fin 1) cl d)
      = ((outsAt0 m c (t.val - 1) (Nat.lt_of_le_of_lt (Nat.sub_le _ _) t.isLt)).2 : Vec Ideal S1x128x128 .f32) (ix3 (0 : Fin 1) cl d)
        + tileSum (clsP m c cl) (featG m c d) (tileOf t) := by
  rw [outsAt0_B m c t h0]
  dsimp only
  refine (congrFun (sums_out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) (ix3 (0 : Fin 1) cl d)).trans ?_
  refine (acc_apply _ _ cl d).trans ?_
  exact congrArg (fun a => ((outsAt0 m c (t.val - 1) (Nat.lt_of_le_of_lt (Nat.sub_le _ _) t.isLt)).2 : Vec Ideal S1x128x128 .f32) (ix3 (0 : Fin 1) cl d) + a) (sums_tile m c t cl d)

theorem sums_outs_eq (cl d : Fin 128) : ∀ (n : ℕ) (hn : n < cfg0.N),
    ((outsAt0 m c n hn).2 : Vec Ideal S1x128x128 .f32) (ix3 (0 : Fin 1) cl d)
      = runSum (tileSumN (clsP m c cl) (featG m c d)) n
  | 0, hn => by
    refine (sums_step_A m c ⟨0, hn⟩ rfl cl d).trans ?_
    rw [runSum, ← tileSumN_val]
  | n + 1, hn => by
    rw [runSum]
    by_cases h0 : (n + 1) % 25 = 0
    · rw [if_pos h0]
      refine (sums_step_A m c ⟨n + 1, hn⟩ h0 cl d).trans ?_
      rw [← tileSumN_val]
    · rw [if_neg h0]
      refine (sums_step_B m c ⟨n + 1, hn⟩ h0 cl d).trans ?_
      rw [← tileSumN_val]
      exact congrArg (fun a => a + tileSumN (clsP m c cl) (featG m c d) (n + 1)) (sums_outs_eq cl d n _)

def sumsAt (k : Fin 2) (cl d : Fin 128) : EReal :=
  ∑ p ∈ Finset.univ.filter (fun p : Fin 160000 => p.val / 80000 = k.val ∧ clsP m c cl p), featG m c d p

def sumsArr : Vec Ideal S2x128x128 .f32 := fun i =>
  sumsAt m c ⟨(i 0).val, (i 0).isLt⟩ ⟨(i 1).val, (i 1).isLt⟩ ⟨(i 2).val, (i 2).isLt⟩

theorem sumsArr_apply (k : Fin 2) (cl d : Fin 128) : sumsArr m c (ix3 k cl d) = sumsAt m c k cl d := rfl

theorem sums_Icc_last (n : ℕ) (h : n % 25 = 24) :
    Finset.Icc (n - n % 25) n = Finset.Icc (25 * (n / 25)) (25 * (n / 25) + 24) := by
  congr 1 <;> omega

theorem sums_idx12 : ∀ t : Fin cfg0.N,
    win0_12.index t (0 : Fin 3) = t.val / 25 ∧ win0_12.index t (1 : Fin 3) = 0 ∧ win0_12.index t (2 : Fin 3) = 0 :=
  (by decide +kernel : ∀ t : Fin grid0.N, _)

theorem sums_cut12_apply {α : Type} (t : Fin cfg0.N) (X : S1x128x128.Idx → α) (cl d : Fin 128) :
    (cfg0.win 12).cut (grid0.coords t) X (ix3 (0 : Fin 1) cl d) = X (ix3 (0 : Fin 1) cl d) := by
  show X ((cfg0.win 12).xinj (grid0.coords t) (ix3 (0 : Fin 1) cl d)) = X (ix3 (0 : Fin 1) cl d)
  refine congrArg X ?_
  funext a; apply Fin.ext; rfl

theorem sums_read12_apply (t : Fin cfg0.N) (G : Vec Ideal S2x128x128 .f32) (cl d : Fin 128) :
    ((cfg0.win 12).blk t).view.read (Elt Ideal) G (ix3 (0 : Fin 1) cl d)
      = G (((cfg0.win 12).blk t).view.emb (ix3 (0 : Fin 1) cl d)) := by
  rw [View.read_apply]
  rfl

theorem sums_flushed_eq (t : Fin cfg0.N) (hf : (cfg0.win 12).flush t = true) :
    (dats m 0 c).flushed 12 t = ((cfg0.win 12).blk t).view.read (Elt Ideal) (sumsArr m c) := by
  have hN : t.val < 50 := lt_of_lt_of_eq t.isLt (show cfg0.N = 50 from N_0)
  have h24 : t.val % 25 = 24 := (flush0_12 t).mp hf
  show (cfg0.win 12).cut (grid0.coords t) ((dats m 0 c).after 12 t) = _
  rw [after0_12]
  funext j
  obtain ⟨e0, e1, e2⟩ := sums_idx12 t
  obtain ⟨a, cl, d, rfl⟩ : ∃ (a : Fin 1) (cl d : Fin 128), j = ix3 a cl d := ⟨j 0, j 1, j 2, eq_ix3 j⟩
  obtain rfl : a = 0 := Subsingleton.elim _ _
  have hemb : ((cfg0.win 12).blk t).view.emb (ix3 (0 : Fin 1) cl d)
      = (ix3 (⟨t.val / 25, by omega⟩ : Fin 2) cl d : S2x128x128.Idx) := by
    funext a; apply Fin.ext
    match a with
    | ⟨0, _⟩ => show win0_12.index t (0 : Fin 3) * 1 + 1 * 0 = t.val / 25; rw [e0]; omega
    | ⟨1, _⟩ => show win0_12.index t (1 : Fin 3) * 128 + 1 * cl.val = cl.val; rw [e1]; omega
    | ⟨2, _⟩ => show win0_12.index t (2 : Fin 3) * 128 + 1 * d.val = d.val; rw [e2]; omega
  refine (sums_cut12_apply t ((outsAt0 m c t.val t.isLt).2) cl d).trans ?_
  refine Eq.trans ?_ (sums_read12_apply t (sumsArr m c) cl d).symm
  rw [hemb, sumsArr_apply, sums_outs_eq m c cl d t.val t.isLt, runSum_eq, sums_Icc_last t.val h24]
  exact core_sum (clsP m c cl) (featG m c d) ⟨t.val / 25, by omega⟩

theorem sums_mem_blk (t : Fin cfg0.N) (i : S2x128x128.Idx) :
    i ∈ ((cfg0.win 12).blk t).view.set ↔ ∀ a : Fin 3, win0_12.index t a * S1x128x128.size a ≤ (i a).val
      ∧ (i a).val < win0_12.index t a * S1x128x128.size a + S1x128x128.size a := by
  show i ∈ ((View.whole main_v35_1).slice (win0_12.rect t)).set ↔ _
  rw [View.set_slice_whole, Rect.mem_set_unit]
  exact Iff.rfl

theorem sums_cover (i : S2x128x128.Idx) :
    ∃ t : Fin cfg0.N, (cfg0.win 12).flush t = true ∧ i ∈ ((cfg0.win 12).blk t).view.set := by
  have h0 : (i 0).val < 2 := (i 0).isLt
  have h1 : (i 1).val < 128 := (i 1).isLt
  have h2 : (i 2).val < 128 := (i 2).isLt
  have hN : 25 * (i 0).val + 24 < cfg0.N := by rw [show cfg0.N = 50 from N_0]; omega
  refine ⟨⟨25 * (i 0).val + 24, hN⟩, (flush0_12 _).mpr (by dsimp only; omega), ?_⟩
  rw [sums_mem_blk]
  obtain ⟨e0, e1, e2⟩ := sums_idx12 ⟨25 * (i 0).val + 24, hN⟩
  intro a
  match a with
  | ⟨0, _⟩ =>
    show win0_12.index ⟨25 * (i 0).val + 24, hN⟩ (0 : Fin 3) * 1 ≤ (i 0).val ∧ (i 0).val < win0_12.index ⟨25 * (i 0).val + 24, hN⟩ (0 : Fin 3) * 1 + 1
    rw [e0]; dsimp only; omega
  | ⟨1, _⟩ =>
    show win0_12.index ⟨25 * (i 0).val + 24, hN⟩ (1 : Fin 3) * 128 ≤ (i 1).val ∧ (i 1).val < win0_12.index ⟨25 * (i 0).val + 24, hN⟩ (1 : Fin 3) * 128 + 128
    rw [e1]; omega
  | ⟨2, _⟩ =>
    show win0_12.index ⟨25 * (i 0).val + 24, hN⟩ (2 : Fin 3) * 128 ≤ (i 2).val ∧ (i 2).val < win0_12.index ⟨25 * (i 0).val + 24, hN⟩ (2 : Fin 3) * 128 + 128
    rw [e2]; omega

theorem sums_final : (dats m 0 c).arrAt 12 cfg0.N = sumsArr m c :=
  (dats m 0 c).arrAt_eq_of_cover 12 (sumsArr m c) (sums_flushed_eq m c) (sums_cover)

theorem final_sums (core : Fin 2) (cl : Fin 128) (d : Fin 128) :
    ((dats m 0 c).arrAt 12 cfg0.N : Vec Ideal S2x128x128 .f32) (ix3 core cl d)
      = ∑ p ∈ Finset.univ.filter (fun p : Fin 160000 => p.val / 80000 = core.val
            ∧ Cert.Spec.lab (m ((c : Thread nD τ).loc main_arg2)) p = BitVec.ofNat 32 cl.val),
          Cert.Spec.featn (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) p d :=
  (congrFun (sums_final m c) (ix3 core cl d)).trans (sumsArr_apply m c core cl d)

end Cert.KernelIdeal.Val

end
-- ==== Proof.Val.Tail.lean ====
import proofs.«417753_j63831803953783_3_alg».proof.Proof.Fr.Entry
import proofs.«417753_j63831803953783_3_alg».proof.Proof.Fr.Host
import proofs.«417753_j63831803953783_3_alg».proof.Proof.Spec
import proofs.«417753_j63831803953783_3_alg».proof.Proof.Val.EntryValues
import Idealize.ShloMosaic.Lib.Pipeline.FrameSuffix
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.StableHlo

namespace Tail

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, StableHlo.after_cons, ih]

theorem hostSqrt_apply {s : Shape} {φ : FTy} (a : FVec Ideal s φ) (i : s.Idx) : Host.sqrt a i = Ideal.sqrt (a i) := rfl

theorem bcast_col_apply {α : Type} (x : S13x1.Idx → α) (cl : Fin 13) (d : Fin 128) :
    broadcastInDim S13x128 ![0, 1] bcast_S13x1_S13x128_0_1 x (ix2 cl d) = x (ix2 cl (0 : Fin 1)) :=
  broadcastInDim_apply _ _ x _ _ fun a => by match a with | ⟨0, _⟩ => rfl | ⟨1, _⟩ => rfl

theorem bcast_vec_apply {α : Type} (x : S13.Idx → α) (cl : Fin 13) :
    broadcastInDim S13x1 ![0] bcast_S13_S13x1_0 x (ix2 cl (0 : Fin 1)) = x (ix1 cl) :=
  broadcastInDim_apply _ _ x _ _ fun a => by match a with | ⟨0, _⟩ => rfl

set_option maxHeartbeats 1000000

theorem stageA_v42 (W : Valuation τ sig (Elt Ideal)) (S : S2x128x128.Idx → EReal) (cn : S13.Idx → EReal)
    (hS : W (Proc.devRef .tc main_v35_1) = S) (hcn : W (Proc.devRef .tc main_v17) = cn) (cl : Fin 13) (d : Fin 128) :
    (StableHlo.after (hostOps1 (F := Ideal)) W (Proc.devRef .tc main_v42) : S13x128.Idx → EReal) (ix2 cl d)
      = Ideal.div (∑ core : Fin 2, S (ix3 core (⟨cl.val, by omega⟩ : Fin 128) d)) (max (cn (ix1 cl)) Cert.Spec.one) := by
  after_results
  rw [hS, hcn, hostDivf_apply, bcast_col_apply, bcast_vec_apply, maximumf_apply, broadcastInDim_scalar_apply, constant_apply,
    extractStridedSlice_apply (k := ix2 (⟨cl.val, by omega⟩ : Fin 128) d) (hk := fun a => by match a with | ⟨0, _⟩ => simp | ⟨1, _⟩ => simp),
    hostReduceAdd_apply, Ideal.hostReduceAdd_single _ (by decide), constant_apply, Ideal.ofBits_zero_f32, zero_add]
  refine congrArg₂ Ideal.div (Finset.sum_congr rfl fun core _ => congrArg S ?_) rfl
  funext a; match a with | ⟨0, _⟩ => rfl | ⟨1, _⟩ => rfl | ⟨2, _⟩ => rfl

theorem stageA_v43 (W : Valuation τ sig (Elt Ideal)) (vb : S13.Idx → BitVec 1)
    (hvb : W (Proc.devRef .tc main_v19) = vb) (cl : Fin 13) :
    (StableHlo.after (hostOps1 (F := Ideal)) W (Proc.devRef .tc main_v43) : S13x1.Idx → BitVec 1) (ix2 cl (0 : Fin 1)) = vb (ix1 cl) := by
  after_results
  rw [hvb, bcast_vec_apply]

theorem stageA_arg11 (W : Valuation τ sig (Elt Ideal)) :
    StableHlo.after (hostOps1 (F := Ideal)) W (Proc.devRef .tc main_arg11) = W (Proc.devRef .tc main_arg11) := by
  after_results

theorem stageB_v44 (W : Valuation τ sig (Elt Ideal)) (bc : S13x1.Idx → BitVec 1) (mean pr : S13x128.Idx → EReal)
    (hbc : W (Proc.devRef .tc main_v43) = bc) (hmean : W (Proc.devRef .tc main_v42) = mean) (hpr : W (Proc.devRef .tc main_arg11) = pr)
    (cl : Fin 13) (d : Fin 128) :
    (StableHlo.after (hostOps1_1 (F := Ideal)) W (Proc.devRef .tc main_v44) : S13x128.Idx → EReal) (ix2 cl d)
      = Scalar.select (bc (ix2 cl (0 : Fin 1))) (mean (ix2 cl d)) (pr (ix2 cl d)) := by
  after_results
  show select (broadcastInDim S13x128 ![0, 1] bcast_S13x1_S13x128_0_1 (W (Proc.devRef .tc main_v43))) (W (Proc.devRef .tc main_v42))
    (W (Proc.devRef .tc main_arg11)) (ix2 cl d) = _
  rw [hbc, hmean, hpr, select_apply, bcast_col_apply]

theorem stageB_arg11 (W : Valuation τ sig (Elt Ideal)) :
    StableHlo.after (hostOps1_1 (F := Ideal)) W (Proc.devRef .tc main_arg11) = W (Proc.devRef .tc main_arg11) := by
  after_results

theorem stageC_v57 (W : Valuation τ sig (Elt Ideal)) (cur pr : S13x128.Idx → EReal)
    (hcur : W (Proc.devRef .tc main_v44) = cur) (hpr : W (Proc.devRef .tc main_arg11) = pr) (cl : Fin 13) (d : Fin 128) :
    (StableHlo.after (hostOps1_2 (F := Ideal)) W (Proc.devRef .tc main_v57) : S13x128.Idx → EReal) (ix2 cl d)
      = Ideal.div (Cert.Spec.beta * pr (ix2 cl d) + Cert.Spec.omb * cur (ix2 cl d))
          (max (Ideal.sqrt (∑ e : Fin 128, (Cert.Spec.beta * pr (ix2 cl e) + Cert.Spec.omb * cur (ix2 cl e))
            * (Cert.Spec.beta * pr (ix2 cl e) + Cert.Spec.omb * cur (ix2 cl e)))) Cert.Spec.eps) := by
  after_results
  rw [hcur, hpr, hostDivf_apply, bcast_col_apply, maximumf_apply, hostSqrt_apply, bcast_vec_apply,
    hostReduceAdd_apply, Ideal.hostReduceAdd_single _ (by decide), constant_apply, Ideal.ofBits_zero_f32, zero_add]
  simp only [addf_apply, mulf_apply, broadcastInDim_scalar_apply, constant_apply]
  refine congrArg₂ Ideal.div rfl (congrArg₂ max (congrArg Ideal.sqrt (Finset.sum_congr rfl fun e _ => ?_)) rfl)
  have he : (by decide : Shape.Reduces S13x128 [1] S13).lift (ix1 cl) e = ix2 cl e := by
    funext a; match a with | ⟨0, _⟩ => rfl | ⟨1, _⟩ => rfl
  rw [he]; rfl

section Pure

variable (pos : (⟨3, ![4, 40000, 3]⟩ : Shape).Idx → EReal) (x : (⟨3, ![4, 4, 40000]⟩ : Shape).Idx → EReal)
  (y : (⟨2, ![4, 40000]⟩ : Shape).Idx → BitVec 32)
  (w1 : (⟨2, ![7, 256]⟩ : Shape).Idx → EReal) (c1 : (⟨1, ![256]⟩ : Shape).Idx → EReal)
  (w2 : (⟨2, ![256, 512]⟩ : Shape).Idx → EReal) (c2 : (⟨1, ![512]⟩ : Shape).Idx → EReal)
  (w3 : (⟨2, ![512, 256]⟩ : Shape).Idx → EReal) (c3 : (⟨1, ![256]⟩ : Shape).Idx → EReal)
  (w4 : (⟨2, ![256, 128]⟩ : Shape).Idx → EReal) (c4 : (⟨1, ![128]⟩ : Shape).Idx → EReal)
  (pr : (⟨2, ![13, 128]⟩ : Shape).Idx → EReal)

theorem sums_of_halves (S : S2x128x128.Idx → EReal)
    (hS : ∀ (core : Fin 2) (cl : Fin 128) (d : Fin 128), S (ix3 core cl d)
      = ∑ p ∈ Finset.univ.filter (fun p : Fin 160000 => p.val / 80000 = core.val ∧ Cert.Spec.lab y p = BitVec.ofNat 32 cl.val),
          Cert.Spec.featn pos x w1 c1 w2 c2 w3 c3 w4 c4 p d)
    (cl : Fin 13) (d : Fin 128) :
    ∑ core : Fin 2, S (ix3 core (⟨cl.val, by omega⟩ : Fin 128) d) = Cert.Spec.sums pos x y w1 c1 w2 c2 w3 c3 w4 c4 cl d := by
  unfold Cert.Spec.sums
  simp only [hS]
  rw [← Finset.sum_fiberwise_of_maps_to (s := Finset.univ.filter (fun p : Fin 160000 => Cert.Spec.lab y p = BitVec.ofNat 32 cl.val))
    (t := (Finset.univ : Finset (Fin 2))) (g := fun p : Fin 160000 => (⟨p.val / 80000, by have := p.isLt; omega⟩ : Fin 2))
    (fun _ _ => Finset.mem_univ _)]
  refine Finset.sum_congr rfl fun core _ => Finset.sum_congr ?_ fun _ _ => rfl
  ext p
  simp only [Finset.mem_filter, Finset.mem_univ, true_and, Fin.ext_iff]
  tauto

theorem cur_of_parts (S : S2x128x128.Idx → EReal) (cn : S13.Idx → EReal) (vb : S13.Idx → BitVec 1)
    (hS : ∀ (core : Fin 2) (cl : Fin 128) (d : Fin 128), S (ix3 core cl d)
      = ∑ p ∈ Finset.univ.filter (fun p : Fin 160000 => p.val / 80000 = core.val ∧ Cert.Spec.lab y p = BitVec.ofNat 32 cl.val),
          Cert.Spec.featn pos x w1 c1 w2 c2 w3 c3 w4 c4 p d)
    (hcn : ∀ cl : Fin 13, cn (ix1 cl) = Cert.Spec.cnt y cl)
    (hvb : ∀ cl : Fin 13, vb (ix1 cl) = 1#1 ↔ Cert.Spec.valid y cl) (cl : Fin 13) (d : Fin 128) :
    Scalar.select (vb (ix1 cl))
        (Ideal.div (∑ core : Fin 2, S (ix3 core (⟨cl.val, by omega⟩ : Fin 128) d)) (max (cn (ix1 cl)) Cert.Spec.one))
        (pr (ix2 cl d))
      = Cert.Spec.cur pos x y w1 c1 w2 c2 w3 c3 w4 c4 pr cl d := by
  unfold Cert.Spec.cur
  by_cases hv : Cert.Spec.valid y cl
  · rw [if_pos hv, (hvb cl).2 hv, select_one, sums_of_halves pos x y w1 c1 w2 c2 w3 c3 w4 c4 S hS cl d, hcn]
  · rw [if_neg hv, eq_zero_of_ne_one (mt (hvb cl).1 hv), select_zero]

end Pure

variable (m : (ℓ : Loc nD τ sig) → Buf (Elt Ideal) ℓ) (c : Dev nD)

abbrev W0 (dats : (p : Fin 1) → (c : Dev nD) → Pipeline.Dat τ (Elt Ideal) Unit ℕ (UR sig nD τ) ℕ (cfgs p) c) : Valuation τ sig (Elt Ideal) :=
  Pipeline.withArrays spec0 c (Fr.V0 m c) fun w => (dats 0 c).arrAt w cfg0.N

abbrev sumsArr (dats : (p : Fin 1) → (c : Dev nD) → Pipeline.Dat τ (Elt Ideal) Unit ℕ (UR sig nD τ) ℕ (cfgs p) c) : S2x128x128.Idx → EReal := (dats 0 c).arrAt 12 cfg0.N

abbrev cntArr : S13.Idx → EReal := Fr.V m c main_v17

abbrev validArr : S13.Idx → BitVec 1 := Fr.V m c main_v19

abbrev priorArr : S13x128.Idx → EReal := m ((c : Thread nD τ).loc main_arg11)

theorem W0_sums (dats : (p : Fin 1) → (c : Dev nD) → Pipeline.Dat τ (Elt Ideal) Unit ℕ (UR sig nD τ) ℕ (cfgs p) c) : W0 m c dats (Proc.devRef .tc main_v35_1) = sumsArr c dats :=
  Pipeline.withArrays_arr spec0 launch0.win.arr_inj c _ _ 12
theorem W0_counts (dats : (p : Fin 1) → (c : Dev nD) → Pipeline.Dat τ (Elt Ideal) Unit ℕ (UR sig nD τ) ℕ (cfgs p) c) : W0 m c dats (Proc.devRef .tc main_v17) = cntArr m c :=
  Pipeline.withArrays_of_ne spec0 c (Fr.V0 m c) _ main_v17 (by exact (by decide : ∀ w, Pipeline.arrRef spec0 w ≠ main_v17))
theorem W0_valid (dats : (p : Fin 1) → (c : Dev nD) → Pipeline.Dat τ (Elt Ideal) Unit ℕ (UR sig nD τ) ℕ (cfgs p) c) : W0 m c dats (Proc.devRef .tc main_v19) = validArr m c :=
  Pipeline.withArrays_of_ne spec0 c (Fr.V0 m c) _ main_v19 (by exact (by decide : ∀ w, Pipeline.arrRef spec0 w ≠ main_v19))
theorem W0_prior (dats : (p : Fin 1) → (c : Dev nD) → Pipeline.Dat τ (Elt Ideal) Unit ℕ (UR sig nD τ) ℕ (cfgs p) c) : W0 m c dats (Proc.devRef .tc main_arg11) = priorArr m c :=
  (Pipeline.withArrays_of_ne spec0 c (Fr.V0 m c) _ main_arg11 (by exact (by decide : ∀ w, Pipeline.arrRef spec0 w ≠ main_arg11))).trans
    (Fr.V_arg m c (r := main_arg11) (by decide))

theorem tail_split (dats : (p : Fin 1) → (c : Dev nD) → Pipeline.Dat τ (Elt Ideal) Unit ℕ (UR sig nD τ) ℕ (cfgs p) c) :
    Pipeline.afterTail₀ cfgs dats 0 (Fr.V0 m) [hostOps1, hostOps1_1, hostOps1_2] c main_v57
      = StableHlo.after hostOps1_2 (StableHlo.after hostOps1_1 (StableHlo.after hostOps1 (W0 m c dats))) (Proc.devRef .tc main_v57) := by
  unfold Pipeline.afterTail₀
  show StableHlo.after (hostOps1 ++ (hostOps1_1 ++ (hostOps1_2 ++ []))) _ _ = _
  rw [after_append, after_append, List.append_nil]

end Tail

open Tail

variable (m : (ℓ : Loc nD τ sig) → Buf (Elt Ideal) ℓ) (c : Dev nD)

theorem tail_out1 (dats : (p : Fin 1) → (c : Dev nD) → Pipeline.Dat τ (Elt Ideal) Unit ℕ (UR sig nD τ) ℕ (cfgs p) c)
    (hS : ∀ (core : Fin 2) (cl : Fin 128) (d : Fin 128), (dats 0 c).arrAt 12 cfg0.N (ix3 core cl d)
      = ∑ p ∈ Finset.univ.filter (fun p : Fin 160000 => p.val / 80000 = core.val ∧ Cert.Spec.lab (m ((c : Thread nD τ).loc main_arg2)) p = BitVec.ofNat 32 cl.val),
          Cert.Spec.featn (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) p d)
    (cl : Fin 13) (d : Fin 128) :
    Pipeline.afterTail₀ cfgs dats 0 (Fr.V0 m) [hostOps1, hostOps1_1, hostOps1_2] c main_v57 (ix2 cl d)
      = Cert.Spec.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) cl d := by
  rw [tail_split]
  have e42 := stageA_v42 (W0 m c dats) (sumsArr c dats) (cntArr m c) (W0_sums m c dats) (W0_counts m c dats)
  have e43 := stageA_v43 (W0 m c dats) (validArr m c) (W0_valid m c dats)
  have e11 : StableHlo.after (hostOps1 (F := Ideal)) (W0 m c dats) (Proc.devRef .tc main_arg11) = priorArr m c :=
    (stageA_arg11 (W0 m c dats)).trans (W0_prior m c dats)
  have e44 := stageB_v44 (StableHlo.after (hostOps1 (F := Ideal)) (W0 m c dats))
    (StableHlo.after (hostOps1 (F := Ideal)) (W0 m c dats) (Proc.devRef .tc main_v43))
    (StableHlo.after (hostOps1 (F := Ideal)) (W0 m c dats) (Proc.devRef .tc main_v42)) (priorArr m c) rfl rfl e11
  have e11' : StableHlo.after (hostOps1_1 (F := Ideal)) (StableHlo.after (hostOps1 (F := Ideal)) (W0 m c dats)) (Proc.devRef .tc main_arg11)
      = priorArr m c := (stageB_arg11 _).trans e11
  rw [stageC_v57 (StableHlo.after (hostOps1_1 (F := Ideal)) (StableHlo.after (hostOps1 (F := Ideal)) (W0 m c dats)))
    (StableHlo.after (hostOps1_1 (F := Ideal)) (StableHlo.after (hostOps1 (F := Ideal)) (W0 m c dats)) (Proc.devRef .tc main_v44))
    (priorArr m c) rfl e11' cl d]
  simp only [e44, e43, e42]
  simp only [cur_of_parts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (priorArr m c) (sumsArr c dats) (cntArr m c) (validArr m c) hS
    (V_counts m c) (V_validbit m c)]
  rfl

end Cert.KernelIdeal.Val

end
-- ==== Proof.Val.KernelRun.lean ====
import proofs.«417753_j63831803953783_3_alg».proof.Proof.Fr.Frame
import proofs.«417753_j63831803953783_3_alg».proof.Proof.Val.Cp
import proofs.«417753_j63831803953783_3_alg».proof.Proof.Val.Sums
import proofs.«417753_j63831803953783_3_alg».proof.Proof.Val.Tail

noncomputable section

namespace Cert.KernelIdeal.Val

open Cert.KernelIdeal Cert.KernelIdeal.Gen
open Idealize.ShloMosaic Idealize.ShloMosaic.TcCoe Idealize.ShloMosaic.ValueIdx Idealize.SL Idealize.SL.Sem
open Idealize.ShloMosaic.Pipeline (Dat Cfg Window)

-- the frame run's post read at the two results (the first output's array; the host operations after the region) and at the arguments
theorem kernel_run (m : (ℓ : Loc nD τ sig) → Buf (Elt Ideal) ℓ) (ρ : Dev nD → PrngReg)
    (hy : ∀ (c : Dev nD) (q : S4x40000.Idx), (m ((c.tc : Thread nD τ).loc main_arg2) q).toNat < 13) :
    θ_run defs (onTc (τ := τ) (main (F := Ideal))) ⟨m, fun _ => 0, ρ⟩ (fun r => ∀ c : Dev nD,
      r.2.mem ((c.tc : Thread nD τ).loc main_v35_0) = Cert.Spec.res0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v57) = Cert.Spec.res1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).1 11).trans (final_cp m c (hy c)),
      ((h c).2 main_v57 (Pipeline.mem_restRefs_of main_v57 (by decide) (by decide))).trans (funext fun i => by
        obtain ⟨cl, d, rfl⟩ : ∃ (cl : Fin 13) (d : Fin 128), i = ix2 cl d := ⟨i 0, i 1, eq_ix2 i⟩
        exact tail_out1 m c (Fr.dats m) (final_sums m c) cl d),
      Fr.args_kept m (Fr.dats m) h c⟩) (Fr.run_main (F := Ideal) m ρ)

end Cert.KernelIdeal.Val

end
-- ==== Proof.lean ====
import proofs.«417753_j63831803953783_3_alg».proof.Defs
import proofs.«417753_j63831803953783_3_alg».proof.Proof.Gen.Kernel
import proofs.«417753_j63831803953783_3_alg».proof.Proof.Gen.KernelIdeal
import proofs.«417753_j63831803953783_3_alg».proof.Proof.Gen.ReferenceIdeal
import proofs.«417753_j63831803953783_3_alg».proof.Proof.Gen.Pre_finite_inputs
import proofs.«417753_j63831803953783_3_alg».proof.Proof.Fr.Frame
import proofs.«417753_j63831803953783_3_alg».proof.Proof.Ref.FrameRef
import proofs.«417753_j63831803953783_3_alg».proof.Proof.Ref.RefRun
import proofs.«417753_j63831803953783_3_alg».proof.Proof.Val.PreLabels
import proofs.«417753_j63831803953783_3_alg».proof.Proof.Val.KernelRun
import proofs.«417753_j63831803953783_3_alg».proof.Proof.SpecArrays

noncomputable section

namespace Cert.Proof

open Idealize.ShloMosaic Idealize.ShloMosaic.TcCoe Idealize.SL.Sem

-- no operation was rewritten for the reading over the extended reals: the two programs are one text, label by label
theorem defs₀_eq : (Cert.Kernel.defs₀ (F := Bits)) = Cert.KernelIdeal.defs₀ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : (Cert.Kernel.defs (F := Bits)) = Cert.KernelIdeal.defs :=
  congrArg (Pipeline.defs Cert.KernelIdeal.pcfgs) defs₀_eq

-- so the frame, proved once at any values, serves the kernel at the bit-exact ones too
set_option maxHeartbeats 2000000 in
theorem frame_kernel : Cert.frame_Kernel := fun m ρ _ => by
  have h := Cert.KernelIdeal.Fr.frame (F := Bits) m ρ
  rw [← defs_eq] at h
  exact h

theorem frame_kernelIdeal : Cert.frame_KernelIdeal := fun m ρ _ => Cert.KernelIdeal.Fr.frame m ρ

theorem frame_referenceIdeal : Cert.frame_ReferenceIdeal := Cert.ReferenceIdeal.RefValue.frame_ref

theorem preserves : Cert.preserves_Kernel_KernelIdeal := trivial

-- both runs end at one specification's two results, the kernel's of its arguments and the reference's of its own, which agree
theorem algebraic : Cert.algebraic_KernelIdeal_ReferenceIdeal := by
  intro m ρ m' ρ' hpre hagree
  have hy := Cert.KernelIdeal.Val.labels_of_pre m hpre
  have hy' : ∀ (c : Dev Cert.ReferenceIdeal.nD) (q : Cert.ReferenceIdeal.S4x40000.Idx),
      (m' ((c.tc : Thread Cert.ReferenceIdeal.nD Cert.ReferenceIdeal.τ).loc Cert.ReferenceIdeal.main_arg2) q).toNat < 13 := by
    intro c q
    rw [(hagree c).2.2.1]
    exact hy c q
  refine ⟨_, _, Cert.KernelIdeal.Val.kernel_run m ρ hy, ?_⟩
  refine (θ_run Cert.ReferenceIdeal.defs _ _).mono (fun _ h c => ?_) (Cert.ReferenceIdeal.RefValue.ref_run m' ρ' hy')
  obtain ⟨e0, e1, e2, e3, e4, e5, e6, e7, e8, e9, e10, e11⟩ := hagree c
  refine ⟨(h c).1.trans ?_, (h c).2.1.trans ?_, (h c).2.2⟩
  · rw [e0, e1, e2, e3, e4, e5, e6, e7, e8, e9, e10]
  · rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
